-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x256 : Shape := ⟨3, ![2, 2048, 256]⟩
abbrev S2x2048 : Shape := ⟨2, ![2, 2048]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel

variable [Facts]

def fn {F : FTy → Type} [FloatOps F] (main_arg0 : FVec F S2x2048x256 .f32) (main_arg1 : IVec S2x2048 32) : IVec S_ 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  main_v3
-- ==== Kernel.lean ====
abbrev S2x2048x256 : Shape := ⟨3, ![2, 2048, 256]⟩
abbrev S2x2048 : Shape := ⟨2, ![2, 2048]⟩
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024x256 : Shape := ⟨2, ![1024, 256]⟩
abbrev S512x256 : Shape := ⟨2, ![512, 256]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩

abbrev nBuf : Space → Nat
  | .hbm => 28
  | .vmem => 16
  | .smem => 0
  | _ => 0

abbrev bufTy : (tb : Table) → Fin (tcTables nBuf tb) → BufTy
  | .hbm, ⟨0, _⟩ => ⟨S2x2048x256, .f32⟩
  | .hbm, ⟨1, _⟩ => ⟨S2x2048, .i32⟩
  | .hbm, ⟨2, _⟩ => ⟨S4096x256, .f32⟩
  | .hbm, ⟨3, _⟩ => ⟨S4096, .i32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S4096x256, .bf16⟩
  | .hbm, ⟨15, _⟩ => ⟨S4096x1, .i32⟩
  | .hbm, ⟨16, _⟩ => ⟨S1x4096, .i32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S512x256, .bf16⟩
  | .local _ .vmem, ⟨3, _⟩ => ⟨S512x256, .bf16⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v71 : BitVec 1 := Scalar.cmpi .eq arg1 c7_i32
  let v72 : BitVec 32 := Scalar.extui v71
  let c0_i32_30 : BitVec 32 := 0#32
  let v73 : BitVec 1 := Scalar.cmpi .ne v72 c0_i32_30
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x2048x256_S4096x256 : S2x2048x256.ShapeCasts S4096x256
  shapeCasts_S2x2048_S4096 : S2x2048.ShapeCasts S4096
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  shapeCasts_S4096_S4096x1 : S4096.ShapeCasts S4096x1
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1_d0_w32 : S1024x1.Iotas .tc 32 [0]
  iota_S1x512_d1_w32 : S1x512.Iotas .tc 32 [1]
  broadcasts_S1024x1_S1024x512 : S1024x1.Broadcasts S1024x512
  broadcasts_S1x512_S1024x512 : S1x512.Broadcasts S1024x512
  natLt_1_32 : 1 < 32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  shapeCasts_S1024_S1024x1 : S1024.ShapeCasts S1024x1
  reducesTo_S4096x1_S_d0_1 : S4096x1.ReducesTo [0, 1] S_
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .bf16 = 32 ∨ (Rect.block (s := S4096x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .bf16 = 32 ∨ (Rect.block (s := S4096x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v7) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x2048x256 : Shape := ⟨3, ![2, 2048, 256]⟩
abbrev S2x2048 : Shape := ⟨2, ![2, 2048]⟩
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S256x4096 : Shape := ⟨2, ![256, 4096]⟩
abbrev S4096x4096 : Shape := ⟨2, ![4096, 4096]⟩
abbrev S1x4096 : Shape := ⟨2, ![1, 4096]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048, .i32⟩
  | .hbm, ⟨2, _⟩ => ⟨S4096x256, .f32⟩
  | .hbm, ⟨3, _⟩ => ⟨S4096, .i32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S256x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .i32⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S4096x4096, .f32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .i1⟩
  | .hbm, ⟨65, _⟩ => ⟨S4096, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_cst_11 : Ref sig .tc := ⟨.hbm, 70, rfl⟩
abbrev main_call1_v0 : Ref sig .tc := ⟨.hbm, 71, rfl⟩
abbrev main_call1_v1 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  shapeCasts_S2x2048x256_S4096x256 : S2x2048x256.ShapeCasts S4096x256
  shapeCasts_S2x2048_S4096 : S2x2048.ShapeCasts S4096
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.KbPre.lean ====
import proofs.«144165_j35948876268190_1_alg».proof.Proof.Gen.Kernel.Launch
import proofs.«144165_j35948876268190_1_alg».proof.Proof.Gen.Kernel.Skeleton
import proofs.«144165_j35948876268190_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev preOps : List (HloOp τ sig (Elt F)) := List.flatten [hostOps0, hostOps0_1, hostOps0_2]

/-- The arrays as the region finds them, after the host operations before it; an input window's block at a point. -/
abbrev V0 (c : Dev nD) : Valuation τ sig (Elt F) := StableHlo.after (preOps (F := F)) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KbSets.lean ====
import proofs.«144165_j35948876268190_1_alg».proof.Proof.KbPre

noncomputable section

namespace Cert.Kernel.Hand

open Cert.Kernel Cert.Kernel.Gen
open Idealize.ShloMosaic Idealize.ShloMosaic.TcCoe
open Idealize.SL Idealize.SL.Sem
open Idealize.ShloMosaic.Pipeline (ucRefs)

variable {F : FTy → Type} [FloatOps F]

abbrev dr (b : Ref sig .tc) : DevRef τ sig := Proc.devRef .tc b

/-- The arrays under the region's windows, its two outputs among them, and what the host operations after it may touch. -/
def Tarr : Finset (DevRef τ sig) := {dr main_v7, dr main_v8, dr main_v9, dr main_v10_0, dr main_v10_1}

def Tout : Finset (DevRef τ sig) := {dr main_v10_0, dr main_v10_1}

def Stail : Finset (DevRef τ sig) := Tout ∪ (ucRefs τ sig \ Tarr)

theorem Tarr_sub : Tarr ⊆ ucRefs τ sig := by
  decide
theorem Tout_disj : Disjoint Tout (ucRefs τ sig \ Tarr) := by
  decide
theorem v10_0_not_rest : ∀ b ∈ ucRefs τ sig \ Tarr, b ≠ dr main_v10_0 ∧ b ≠ dr main_v10_1 := by
  decide
theorem mem_Stail_v15 : dr main_v15 ∈ Stail := by
  decide
theorem mem_Stail_arg0 : dr main_arg0 ∈ Stail := by
  decide
theorem mem_Stail_arg1 : dr main_arg1 ∈ Stail := by
  decide

theorem hostOps1_Stail : ∀ op ∈ (hostOps1 : List (HloOp τ sig (Elt F))), op.bufs ⊆ Stail := by
  intro op hop
  simp only [List.mem_cons, List.mem_nil_iff, or_false] at hop
  rcases hop with rfl | rfl | rfl | rfl | rfl | rfl | rfl | rfl | rfl
  all_goals first
    | (rw [StableHlo.nullary_bufs]; decide)
    | (rw [StableHlo.binary_bufs]; decide)

variable (m : (ℓ : Loc nD τ sig) → Buf (Elt F) ℓ)

theorem V0_arg0 (c : Dev nD) : V0 m c (dr main_arg0) = m (c, dr main_arg0) := by
  refine StableHlo.after_of_forall_not_mem (preOps (F := F)) (fun b => m (c, b)) ?_
  intro op hop
  simp only [preOps, List.flatten_cons, List.flatten_nil, List.append_nil, List.mem_append, List.mem_cons,
    List.mem_nil_iff, or_false] at hop
  rcases hop with (rfl | rfl) | (rfl | rfl | rfl | rfl | rfl) | (rfl | rfl | rfl | rfl | rfl | rfl | rfl | rfl) <;>
    simp only [StableHlo.unary_writes, StableHlo.binary_writes, StableHlo.nullary_writes, StableHlo.reshape_writes, Finset.mem_singleton] <;>
    exact StableHlo.devRef_ne_of_ne (by decide)
theorem V0_arg1 (c : Dev nD) : V0 m c (dr main_arg1) = m (c, dr main_arg1) := by
  refine StableHlo.after_of_forall_not_mem (preOps (F := F)) (fun b => m (c, b)) ?_
  intro op hop
  simp only [preOps, List.flatten_cons, List.flatten_nil, List.append_nil, List.mem_append, List.mem_cons,
    List.mem_nil_iff, or_false] at hop
  rcases hop with (rfl | rfl) | (rfl | rfl | rfl | rfl | rfl) | (rfl | rfl | rfl | rfl | rfl | rfl | rfl | rfl) <;>
    simp only [StableHlo.unary_writes, StableHlo.binary_writes, StableHlo.nullary_writes, StableHlo.reshape_writes, Finset.mem_singleton] <;>
    exact StableHlo.devRef_ne_of_ne (by decide)

theorem tail_arg0 (W : Valuation τ sig (Elt F)) : StableHlo.after (hostOps1 (F := F)) W (dr main_arg0) = W (dr main_arg0) := by
  refine StableHlo.after_of_forall_not_mem _ W ?_
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)
theorem tail_arg1 (W : Valuation τ sig (Elt F)) : StableHlo.after (hostOps1 (F := F)) W (dr main_arg1) = W (dr main_arg1) := by
  refine StableHlo.after_of_forall_not_mem _ W ?_
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

end Cert.Kernel.Hand

end
-- ==== Proof.KbLaunch.lean ====
import proofs.«144165_j35948876268190_1_alg».proof.Proof.KbSets

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W₀ (c : Dev nD) : Valuation τ sig (Elt F) := fun b => m (c, b)

abbrev W₁ (c : Dev nD) : Valuation τ sig (Elt F) := StableHlo.after (hostOps0 (F := F)) (W₀ m c)
abbrev W₂ (c : Dev nD) : Valuation τ sig (Elt F) := StableHlo.after (hostOps0_1 (F := F)) (W₁ m c)
abbrev W₃ (c : Dev nD) : Valuation τ sig (Elt F) := StableHlo.after (hostOps0_2 (F := F)) (W₂ m c)

theorem W₃_eq (c : Dev nD) : W₃ m c = V0 m c := by
  unfold W₃ W₂ W₁ V0 preOps
  simp only [List.flatten_cons, List.flatten_nil, List.append_nil, StableHlo.after_append]

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

abbrev R (c : Dev nD) : sProp 𝕄 :=
  iprop((∃ W, owes (c : Thread nD τ) (0 : CellTallies nD τ sig Unit) W) ∗ ∃ r, prngReg c r)

theorem hostOps0_fresh : ∀ op ∈ (hostOps0 : List (HloOp τ sig (Elt F))), op.fresh = ∅ := by
  intro _ h; (repeat (cases h with | head => rfl | tail _ h => ?_)); exact nomatch h
theorem hostOps0_1_fresh : ∀ op ∈ (hostOps0_1 : List (HloOp τ sig (Elt F))), op.fresh = ∅ := by
  intro _ h; (repeat (cases h with | head => rfl | tail _ h => ?_)); exact nomatch h
theorem hostOps0_2_fresh : ∀ op ∈ (hostOps0_2 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

def segA : Pipeline.HostSeg (Name := ℕ) (U := UR sig nD τ) (pcfgs (F := F)) defs₀ 𝒱₀ L lv :=
  Pipeline.HostSeg.ofOps _ _ _ _ _ (ucRefs τ sig) hostOps0
    (fun op h => Pipeline.sub_ucRefs op ((List.forall_iff_forall_mem.mp hostOps0_sub) op h)) hostOps0_fresh (W₀ m) R
def segB : Pipeline.HostSeg (Name := ℕ) (U := UR sig nD τ) (pcfgs (F := F)) defs₀ 𝒱₀ L lv :=
  Pipeline.HostSeg.ofOps _ _ _ _ _ (ucRefs τ sig) hostOps0_1
    (fun op h => Pipeline.sub_ucRefs op ((List.forall_iff_forall_mem.mp hostOps0_1_sub) op h)) hostOps0_1_fresh (W₁ m) R
def segC : Pipeline.HostSeg (Name := ℕ) (U := UR sig nD τ) (pcfgs (F := F)) defs₀ 𝒱₀ L lv :=
  Pipeline.HostSeg.ofOps _ _ _ _ _ (ucRefs τ sig) hostOps0_2
    (fun op h => Pipeline.sub_ucRefs op ((List.forall_iff_forall_mem.mp hostOps0_2_sub) op h)) hostOps0_2_fresh (W₂ m) R

section Region

variable (dats : (p : Fin 1) → (c : Dev nD) → Dat τ (Elt F) Unit ℕ (UR sig nD τ) ℕ (cfgs p) c)

abbrev pt (c : Dev nD) (b : Ref sig .tc) (q : PosShare TreeShare) (f : Buf (Elt F) ((c : Thread nD τ).loc b)) : sProp 𝕄 :=
  ((c : Thread nD τ).loc b) ↦{q} f

theorem held_Tarr (c : Dev nD) (W : Valuation τ sig (Elt F)) :
    (StableHlo.held (c : Thread nD τ) Tarr W : sProp 𝕄)
      = iprop(pt c main_v7 fullShare (W (dr main_v7)) ∗ pt c main_v8 fullShare (W (dr main_v8)) ∗ pt c main_v9 fullShare (W (dr main_v9))
          ∗ pt c main_v10_0 fullShare (W (dr main_v10_0)) ∗ pt c main_v10_1 fullShare (W (dr main_v10_1))) := by
  unfold StableHlo.held Tarr
  exact bigSep_eq_bigSepL_of_eq [dr main_v7, dr main_v8, dr main_v9, dr main_v10_0, dr main_v10_1] (by decide) (by decide) _

theorem held_Tout (c : Dev nD) (W : Valuation τ sig (Elt F)) :
    (StableHlo.held (c : Thread nD τ) Tout W : sProp 𝕄)
      = iprop(pt c main_v10_0 fullShare (W (dr main_v10_0)) ∗ pt c main_v10_1 fullShare (W (dr main_v10_1))) := by
  unfold StableHlo.held Tout
  exact bigSep_eq_bigSepL_of_eq [dr main_v10_0, dr main_v10_1] (by decide) (by decide) _

theorem arrays_chain (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare) (c : Dev nD)
    (G : (w : Fin cfg0.W) → Buf (Elt F) ((cfg0.win w).arr.view.loc (c : Thread nD τ))) :
    ((dats 0 c).arrays G : sProp 𝕄)
      = iprop(pt c main_v7 fullShare.left (G 0) ∗ pt c main_v7 fullShare.right (G 1) ∗ pt c main_v8 fullShare (G 2)
          ∗ pt c main_v9 fullShare (G 3) ∗ pt c main_v10_0 fullShare (G 4) ∗ pt c main_v10_1 fullShare (G 5)) := by
  have e : ((dats 0 c).arrays G : sProp 𝕄)
      = bigSep Finset.univ fun w : Fin 6 => (((c : Thread nD τ).loc (Pipeline.arrRef spec0 w)) ↦{(dats 0 c).share w} G w : sProp 𝕄) := by
    unfold Dat.arrays
    exact bigSep_congr fun w _ => by rw [(arr_whole0 w).set_eq_univ]
  have s0 : (dats 0 c).share 0 = fullShare.left := by unfold Dat.share; rw [if_neg (by decide)]; exact hq0 c
  have s1 : (dats 0 c).share 1 = fullShare.right := by unfold Dat.share; rw [if_neg (by decide)]; exact hq1 c
  have s2 : (dats 0 c).share 2 = fullShare := by unfold Dat.share; rw [if_neg (by decide)]; exact hq2 c
  have s3 : (dats 0 c).share 3 = fullShare := by unfold Dat.share; rw [if_neg (by decide)]; exact hq3 c
  have s4 : (dats 0 c).share 4 = fullShare := by unfold Dat.share; rw [if_pos (by decide)]
  have s5 : (dats 0 c).share 5 = fullShare := by unfold Dat.share; rw [if_pos (by decide)]
  rw [e, bigSep_W0, s0, s1, s2, s3, s4, s5]

variable (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (howed : ∀ c t, (dats 0 c).owed t = 0) (hrec : ∀ c t, (dats 0 c).recorded t = Set.univ)
  (hbody : ∀ c, BodyObligation (dats 0 c) (defs₀ (F := F)) 𝒱₀ () Set.univ)
  (hin : ∀ c, Pipeline.ΦA spec0 c ⊢ (dats 0 c).Φ 0)
  (hout : ∀ c, (dats 0 c).Φ (Fin.last cfg0.N) ⊢ Pipeline.ΦA spec0 c)

def Vpost (c : Dev nD) : Valuation τ sig (Elt F) :=
  Function.update (Function.update (V0 m c) (dr main_v10_0) ((dats 0 c).arrAt 4 cfg0.N)) (dr main_v10_1) ((dats 0 c).arrAt 5 cfg0.N)

theorem Vpost_out1 (c : Dev nD) : Vpost m dats c (dr main_v10_1) = (dats 0 c).arrAt 5 cfg0.N := by
  unfold Vpost; exact Function.update_self ..
theorem Vpost_out0 (c : Dev nD) : Vpost m dats c (dr main_v10_0) = (dats 0 c).arrAt 4 cfg0.N := by
  unfold Vpost
  rw [Function.update_of_ne (StableHlo.devRef_ne_of_ne (by decide))]
  exact Function.update_self ..
theorem Vpost_rest (c : Dev nD) (b : DevRef τ sig) (hb : b ∈ ucRefs τ sig \ Tarr) : Vpost m dats c b = V0 m c b := by
  unfold Vpost
  rw [Function.update_of_ne (v10_0_not_rest b hb).2, Function.update_of_ne (v10_0_not_rest b hb).1]

abbrev Pin (c : Dev nD) : sProp 𝕄 :=
  iprop(pt c main_v7 fullShare.left (V m c main_v7) ∗ pt c main_v7 fullShare.right (V m c main_v7)
    ∗ pt c main_v8 fullShare (V m c main_v8) ∗ pt c main_v9 fullShare (V m c main_v9))

theorem held_Stail (c : Dev nD) (W : Valuation τ sig (Elt F)) :
    (StableHlo.held (c : Thread nD τ) Stail W : sProp 𝕄)
      = iprop(StableHlo.held (c : Thread nD τ) Tout W ∗ StableHlo.held (c : Thread nD τ) (ucRefs τ sig \ Tarr) W) := by
  unfold StableHlo.held Stail
  exact bigSep_union Tout_disj

set_option backward.isDefEq.respectTransparency.types false in
/-- The region between the host stretches; the two embedding windows share one array, held as two half shares. -/
def reg0 : Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 howed
  pre c := iprop(StableHlo.held (c : Thread nD τ) (ucRefs τ sig) (W₃ m c) ∗ R c)
  post c := iprop(StableHlo.held (c : Thread nD τ) Stail (Vpost m dats c) ∗ (Pin m c ∗ R c))
  X c := iprop(∃ r, prngReg c r)
  Y c := iprop(∃ r, prngReg c r)
  Z c := StableHlo.held (c : Thread nD τ) (ucRefs τ sig \ Tarr) (V0 m c)
  hentry c := by
    have e : ∀ w, (dats 0 c).arrAt w 0 = V m c (Pipeline.arrRef spec0 w) := fun w => hA c w
    rw [W₃_eq, StableHlo.held_sub_split (c : Thread nD τ) Tarr_sub (V0 m c), held_Tarr, arrays_chain dats hq0 hq1 hq2 hq3 c,
      e 0, e 1, e 2, e 3, e 4, e 5]
    unfold Pipeline.Dat.owesAt Pipeline.owesWithin
    rw [howed]
    iintro ⟨⟨⟨⟨H7, H8, H9, H10, H11⟩, Hrest⟩, ⟨%W, HO⟩, Hp⟩, -, -⟩
    have hsh : pt c main_v7 fullShare (V0 m c (dr main_v7))
        ⊢ (iprop(pt c main_v7 fullShare.left (V0 m c (dr main_v7)) ∗ pt c main_v7 fullShare.right (V0 m c (dr main_v7))) : sProp 𝕄) :=
      (pointsTo_share (PosShare.mem_left_op_right fullShare)).1
    ihave H7' := hsh $$ H7
    icases H7' with ⟨H7l, H7r⟩
    imodintro
    isplitl [H7l H7r H8 H9 H10 H11]
    · isplitl [H7l]; · iexact H7l
      isplitl [H7r]; · iexact H7r
      isplitl [H8]; · iexact H8
      isplitl [H9]; · iexact H9
      isplitl [H10]; · iexact H10
      iexact H11
    isplitr
    · unfold Pipeline.prefHeld; rw [show (Finset.univ : Finset (Fin 0)) = ∅ from rfl, BI.bigSep_empty]; iempintro
    isplitl [HO]
    · iexists W; isplitr; · ipureintro; exact fun _ _ => Or.inl (by rw [hrec c]; exact Set.mem_univ _)
      iexact HO
    isplitl [Hp]; · iexact Hp
    iexact Hrest
  hin c := by
    refine BIBase.Entails.trans ?_ (hin c)
    unfold Pipeline.ΦA
    iintro ⟨Hp, -, Hr⟩
    isplitl [Hr] <;> iassumption
  hout c := by
    refine (hout c).trans ?_
    rw [Pipeline.ownSems0_none]; unfold Pipeline.ΦA
    iintro ⟨Hr, Hp⟩
    isplitl [Hp]; · iexact Hp
    isplitr; · iempintro
    iexact Hr
  hexit c := by
    have e0 : (dats 0 c).arrAt 0 cfg0.N = V m c main_v7 := ((dats 0 c).arrAt_in 0 rfl _).trans (hA c 0)
    have e1 : (dats 0 c).arrAt 1 cfg0.N = V m c main_v7 := ((dats 0 c).arrAt_in 1 rfl _).trans (hA c 1)
    have e2 : (dats 0 c).arrAt 2 cfg0.N = V m c main_v8 := ((dats 0 c).arrAt_in 2 rfl _).trans (hA c 2)
    have e3 : (dats 0 c).arrAt 3 cfg0.N = V m c main_v9 := ((dats 0 c).arrAt_in 3 rfl _).trans (hA c 3)
    rw [arrays_chain dats hq0 hq1 hq2 hq3 c, held_Stail, held_Tout, Vpost_out0, Vpost_out1,
      StableHlo.held_congr (c : Thread nD τ) (fun b hb => Vpost_rest m dats c b hb), e0, e1, e2, e3]
    unfold Pipeline.Dat.owesAt Pipeline.owesWithin
    rw [howed]
    iintro ⟨⟨H7l, H7r, H8, H9, H10, H11⟩, ⟨%W, -, HO⟩, Hp, Hrest⟩
    imodintro
    isplitl [H10 H11 Hrest]
    · isplitl [H10 H11]
      · isplitl [H10]; · iexact H10
        iexact H11
      iexact Hrest
    isplitl [H7l H7r H8 H9]
    · isplitl [H7l]; · iexact H7l
      isplitl [H7r]; · iexact H7r
      isplitl [H8]; · iexact H8
      iexact H9
    isplitl [HO]
    · iexists W; iexact HO
    iexact Hp

theorem arg0_rest : dr main_arg0 ∈ ucRefs τ sig \ Tarr := by decide
theorem arg1_rest : dr main_arg1 ∈ ucRefs τ sig \ Tarr := by decide

def segT : Pipeline.HostSeg (Name := ℕ) (U := UR sig nD τ) (pcfgs (F := F)) defs₀ 𝒱₀ L lv :=
  Pipeline.HostSeg.ofOps _ _ _ _ _ Stail hostOps1 hostOps1_Stail hostOps1_fresh (Vpost m dats) (fun c => iprop(Pin m c ∗ R c))

def QF (c : Dev nD) (s : MemSt nD τ sig (Elt F)) : Prop :=
  s.mem ((c : Thread nD τ).loc main_v15) = StableHlo.after (hostOps1 (F := F)) (Vpost m dats c) (dr main_v15)
    ∧ s.mem ((c : Thread nD τ).loc main_arg0) = m ((c : Thread nD τ).loc main_arg0)
    ∧ s.mem ((c : Thread nD τ).loc main_arg1) = m ((c : Thread nD τ).loc main_arg1)

include hA hq0 hq1 hq2 hq3 howed hrec hbody hin hout in
set_option backward.isDefEq.respectTransparency.types false in
/-- @main as three host stretches, the region and the host tail, against the launch theorem for a list of segments. -/
theorem run_of : θ_run defs (onTc (τ := τ) (main (F := F))) ⟨m, fun _ => 0, ρ⟩ (fun r => ∀ c : Dev nD, QF m dats c r.2) :=
  Pipeline.θ_run_regions_kit (pcfgs (F := F)) adm dats () cellOf_inj emb₁ defs₀ 𝒱₀ L lv m ρ main
    [.host (segA m), .host (segB m), .host (segC m),
      .region (reg0 m dats hA hq0 hq1 hq2 hq3 howed hrec hbody hin hout), .host (segT m dats)]
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (W₀ m c) ∗ R c))
    (Tₙ := fun c => iprop(StableHlo.held (c : Thread nD τ) Stail (StableHlo.after (hostOps1 (F := F)) (Vpost m dats c)) ∗ Pin m c ∗ ∃ r, prngReg c r))
    (hch := ⟨fun _ => .rfl, fun _ => .rfl, fun _ => .rfl, fun _ => .rfl, fun _ => .rfl, fun c => by
      show (iprop(StableHlo.held (c : Thread nD τ) Stail (StableHlo.after (hostOps1 (F := F)) (Vpost m dats c)) ∗ (Pin m c ∗ R c)) : sProp 𝕄) ⊢ _
      iintro ⟨Hh, Hpin, HO, Hp⟩
      isplitr [HO]
      · isplitl [Hh]; · iexact Hh
        isplitl [Hpin]; · iexact Hpin
        iexact Hp
      iexact HO⟩)
    (hinit := by
      refine Pipeline.initEach L lv fun c => ?_
      rw [show unscopedBufs c (fun b => m ((c : Thread nD τ).loc b)) = StableHlo.held (c : Thread nD τ) (ucRefs τ sig) (W₀ m c) from Pipeline.unscopedBufs_held c (W₀ m c)]
      iintro ⟨⟨Hh, -, HO, -, Hp, -⟩, -⟩
      imodintro
      isplitl [Hh]; · iexact Hh
      isplitl [HO]; · iexists ∅; iexact HO
      iexists _; iexact Hp)
    (QY := QF m dats)
    (hfin := fun c s' => by
      unfold StableHlo.held
      iintro ⟨⟨Hh, -, -⟩, HSI⟩
      ihave Hr := (pointsTo_read_all Stail (fun b => ((c : Thread nD τ).1, b)) (StableHlo.after (hostOps1 (F := F)) (Vpost m dats c)) s') $$ [Hh HSI]
      · isplitl [Hh] <;> iassumption
      icases Hr with ⟨%hr, HSI⟩
      imodintro
      isplitr
      · ipureintro
        exact ⟨hr _ mem_Stail_v15,
          (hr _ mem_Stail_arg0).trans ((tail_arg0 _).trans ((Vpost_rest m dats c _ arg0_rest).trans (V0_arg0 m c))),
          (hr _ mem_Stail_arg1).trans ((tail_arg1 _).trans ((Vpost_rest m dats c _ arg1_rest).trans (V0_arg1 m c)))⟩
      iexact HSI)
    (hQ := fun _ h => h)

end Region

end Cert.Kernel.Hand

end
-- ==== Proof.KbRuns.lean ====
import proofs.«144165_j35948876268190_1_alg».proof.Proof.KbPre
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first branch is taken exactly where a row of column tiles begins, the second where it ends. -/
abbrev condA (i : grid0.Coords) : Prop := (Scalar.cmpi .ne (Scalar.extui (Scalar.cmpi .eq (BitVec.ofNat 32 (i 1).val) 0#32)) 0#32) = 1#1

theorem hcondA : ∀ t : Fin cfg0.N, condA (grid0.coords t) ↔ t.val % 8 = 0 :=
  (by decide +kernel : ∀ t : Fin grid0.N, condA (grid0.coords t) ↔ t.val % 8 = 0)

abbrev condC (i : grid0.Coords) : Prop := k0_cond2 i = 1#1

theorem hcondC : ∀ t : Fin cfg0.N, condC (grid0.coords t) ↔ t.val % 8 = 7 :=
  (by decide +kernel : ∀ t : Fin grid0.N, condC (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬condC (grid0.coords t) → cfg0.idle 4 (grid0.coords t) = true := by decide +kernel
theorem noFlush0_4 : ∀ t : Fin cfg0.N, ¬condC (grid0.coords t) → (cfg0.win 4).flush t = false := by decide +kernel
theorem idleAt0_5 : ∀ t : Fin cfg0.N, ¬condC (grid0.coords t) → cfg0.idle 5 (grid0.coords t) = true := by decide +kernel
theorem noFlush0_5 : ∀ t : Fin cfg0.N, ¬condC (grid0.coords t) → (cfg0.win 5).flush t = false := by decide +kernel

theorem liveAt0_4 : ∀ t : Fin cfg0.N, condC (grid0.coords t) → cfg0.idle 4 (grid0.coords t) = false := by decide +kernel
theorem liveAt0_5 : ∀ t : Fin cfg0.N, condC (grid0.coords t) → cfg0.idle 5 (grid0.coords t) = false := by decide +kernel

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)

abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev scM3 : Memref sig .tc .vmem S1024x1 .f32 := Memref.whole cc0_scratch3

abbrev VS : View sig .tc .vmem S1024x1 .f32 := scM0.view

/-- Between points the region owns the four scratch columns at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- A list of stored pieces of a column of 1024 words. -/
abbrev Pcs (F : FTy → Type) := List (View.Piece (Elt F) S1024x1 .f32)

section Body

variable (c : Dev nD) (i : grid0.Coords)
  (arg2 : Memref sig .tc .vmem S1024x256 .bf16) (harg2 : arg2.IsWhole)
  (arg3 : Memref sig .tc .vmem S512x256 .bf16) (harg3 : arg3.IsWhole)
  (arg4 : Memref sig .tc .vmem S1024x1 .i32) (harg4 : arg4.IsWhole)
  (arg5 : Memref sig .tc .vmem S1x512 .i32) (harg5 : arg5.IsWhole)
  (arg6 : Memref sig .tc .vmem S1024x1 .f32) (harg6 : arg6.IsWhole)
  (arg7 : Memref sig .tc .vmem S1024x1 .f32) (harg7 : arg7.IsWhole)
  (arg8 : Memref sig .tc .vmem S1024x1 .f32) (harg8 : arg8.IsWhole)
  (arg9 : Memref sig .tc .vmem S1024x1 .f32) (harg9 : arg9.IsWhole)
  (arg10 : Memref sig .tc .vmem S1024x1 .f32) (harg10 : arg10.IsWhole)
  (arg11 : Memref sig .tc .vmem S1024x1 .f32) (harg11 : arg11.IsWhole)

set_option maxHeartbeats 1000000 in
/-- At a row's first tile every scratch column is stored whole before it is read, so it may start at anything; the pieces stored are the witness. -/
noncomputable def kernelRun0_A (hcA : condA i) (hcC : ¬condC i)
    (x2 : Vec F S1024x256 .bf16) (x3 : Vec F S512x256 .bf16) (x4 : Vec F S1024x1 .i32) (x5 : Vec F S1x512 .i32) :
    Σ' (LS0 : Pcs F) (LS1 : Pcs F) (LS2 : Pcs F), { LS3 : Pcs F //
      ∀ (xi4 xi5 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__loss_kernel_eq_skeleton]; unfold cc0__loss_kernel_skel
    simp only [k0_part2_eq_skeleton]; unfold k0_part2_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hcA | exact hcC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    isplitl [HS1]; · iexists _; iexact HS1
    isplitl [HS2]; · iexists _; iexact HS2
    iexists _; iexact HS3

set_option maxHeartbeats 1000000 in
/-- Inside a row the scratch columns start at what the tile before left. -/
noncomputable def kernelRun0_B (hcA : ¬condA i) (hcC : ¬condC i)
    (x2 : Vec F S1024x256 .bf16) (x3 : Vec F S512x256 .bf16) (x4 : Vec F S1024x1 .i32) (x5 : Vec F S1x512 .i32) (xs0 xs1 xs2 xs3 : Vec F S1024x1 .f32) :
    Σ' (LS0 : Pcs F) (LS1 : Pcs F) (LS2 : Pcs F), { LS3 : Pcs F //
      ∀ (xi4 xi5 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__loss_kernel_eq_skeleton]; unfold cc0__loss_kernel_skel
    simp only [k0_part2_eq_skeleton]; unfold k0_part2_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    obtain rfl := harg8.eq_unread hfs0; obtain rfl := harg9.eq_unread hfs1; obtain rfl := harg10.eq_unread hfs2; obtain rfl := harg11.eq_unread hfs3
    sl_exec (disch := first | exact hcA | exact hcC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    isplitl [HS1]; · iexists _; iexact HS1
    isplitl [HS2]; · iexists _; iexact HS2
    iexists _; iexact HS3

set_option maxHeartbeats 1000000 in
/-- At a row's last tile both outputs are stored whole as well. -/
noncomputable def kernelRun0_C (hcA : ¬condA i) (hcC : condC i)
    (x2 : Vec F S1024x256 .bf16) (x3 : Vec F S512x256 .bf16) (x4 : Vec F S1024x1 .i32) (x5 : Vec F S1x512 .i32) (xs0 xs1 xs2 xs3 : Vec F S1024x1 .f32) :
    Σ' (L4 : Pcs F) (L5 : Pcs F) (LS0 : Pcs F) (LS1 : Pcs F) (LS2 : Pcs F), { LS3 : Pcs F //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__loss_kernel_eq_skeleton]; unfold cc0__loss_kernel_skel
    simp only [k0_part2_eq_skeleton]; unfold k0_part2_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf2; obtain rfl := harg3.eq_unread hf3; obtain rfl := harg4.eq_unread hf4; obtain rfl := harg5.eq_unread hf5
    obtain rfl := harg8.eq_unread hfs0; obtain rfl := harg9.eq_unread hfs1; obtain rfl := harg10.eq_unread hfs2; obtain rfl := harg11.eq_unread hfs3
    sl_exec (disch := first | exact hcA | exact hcC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Body

end Cert.Kernel.Hand

end
-- ==== Proof.KbData.lean ====
import proofs.«144165_j35948876268190_1_alg».proof.Proof.KbRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The two output columns and the four scratch columns. -/
abbrev Outs (F : FTy → Type) :=
  Vec F S1024x1 .f32 × Vec F S1024x1 .f32 × Vec F S1024x1 .f32 × Vec F S1024x1 .f32 × Vec F S1024x1 .f32 × Vec F S1024x1 .f32

/-- A column nothing was stored into. -/
def idleOut : Vec F S1024x1 .f32 := VS.read (Elt F) VS.junk

/-- What a list of stored pieces leaves in a column, whatever it held before. -/
def readBack (L : Pcs F) : Vec F S1024x1 .f32 := VS.read (Elt F) (VS.writes (Elt F) VS.junk L)

/-- A run that stores the four scratch columns only. -/
def leftScratch {P : Pcs F → Pcs F → Pcs F → Pcs F → Prop} (r : Σ' (L0 L1 L2 : Pcs F), { L3 : Pcs F // P L0 L1 L2 L3 }) : Outs F :=
  (idleOut, idleOut, readBack r.1, readBack r.2.1, readBack r.2.2.1, readBack r.2.2.2.1)

/-- A run that stores both outputs and the four scratch columns. -/
def leftAll {P : Pcs F → Pcs F → Pcs F → Pcs F → Pcs F → Pcs F → Prop}
    (r : Σ' (L4 L5 L0 L1 L2 : Pcs F), { L3 : Pcs F // P L4 L5 L0 L1 L2 L3 }) : Outs F :=
  (readBack r.1, readBack r.2.1, readBack r.2.2.1, readBack r.2.2.2.1, readBack r.2.2.2.2.1, readBack r.2.2.2.2.2.1)

/-- Every list is a tiling by whole columns. -/
abbrev Tiled4 {P : Pcs F → Pcs F → Pcs F → Pcs F → Prop} (r : Σ' (L0 L1 L2 : Pcs F), { L3 : Pcs F // P L0 L1 L2 L3 }) : Prop :=
  View.Piece.tiledL r.1 S1024x1.size = true ∧ View.Piece.tiledL r.2.1 S1024x1.size = true
    ∧ View.Piece.tiledL r.2.2.1 S1024x1.size = true ∧ View.Piece.tiledL r.2.2.2.1 S1024x1.size = true

abbrev Tiled6 {P : Pcs F → Pcs F → Pcs F → Pcs F → Pcs F → Pcs F → Prop}
    (r : Σ' (L4 L5 L0 L1 L2 : Pcs F), { L3 : Pcs F // P L4 L5 L0 L1 L2 L3 }) : Prop :=
  View.Piece.tiledL r.1 S1024x1.size = true ∧ View.Piece.tiledL r.2.1 S1024x1.size = true ∧ View.Piece.tiledL r.2.2.1 S1024x1.size = true
    ∧ View.Piece.tiledL r.2.2.2.1 S1024x1.size = true ∧ View.Piece.tiledL r.2.2.2.2.1 S1024x1.size = true
    ∧ View.Piece.tiledL r.2.2.2.2.2.1 S1024x1.size = true

/-- The body's run at grid point `t` on the windows' staging buffers and the scratch buffers, from the point's input
    blocks: at a row's first tile, -/
abbrev runA (c : Dev nD) (t : Fin cfg0.N) (h0 : t.val % 8 = 0) (h7 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) scM1 (Memref.isWhole_whole _) scM2 (Memref.isWhole_whole _) scM3 (Memref.isWhole_whole _)
    ((hcondA t).mpr h0) (fun h => h7 ((hcondC t).mp h)) (iblk m c 0 t) (iblk m c 1 t) (iblk m c 2 t) (iblk m c 3 t)

/-- inside a row, from the scratch columns of `o`, -/
abbrev runB (c : Dev nD) (t : Fin cfg0.N) (h0 : ¬t.val % 8 = 0) (h7 : ¬t.val % 8 = 7) (o : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) scM1 (Memref.isWhole_whole _) scM2 (Memref.isWhole_whole _) scM3 (Memref.isWhole_whole _)
    (fun h => h0 ((hcondA t).mp h)) (fun h => h7 ((hcondC t).mp h)) (iblk m c 0 t) (iblk m c 1 t) (iblk m c 2 t) (iblk m c 3 t) o.2.2.1 o.2.2.2.1 o.2.2.2.2.1 o.2.2.2.2.2

/-- and at a row's last tile. -/
abbrev runC (c : Dev nD) (t : Fin cfg0.N) (h0 : ¬t.val % 8 = 0) (h7 : t.val % 8 = 7) (o : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) scM1 (Memref.isWhole_whole _) scM2 (Memref.isWhole_whole _) scM3 (Memref.isWhole_whole _)
    (fun h => h0 ((hcondA t).mp h)) ((hcondC t).mpr h7) (iblk m c 0 t) (iblk m c 1 t) (iblk m c 2 t) (iblk m c 3 t) o.2.2.1 o.2.2.2.1 o.2.2.2.2.1 o.2.2.2.2.2

theorem tiledA (c : Dev nD) (t : Fin cfg0.N) (h0 : t.val % 8 = 0) (h7 : ¬t.val % 8 = 7) : Tiled4 (runA m c t h0 h7) :=
  ⟨by sl_kernel_rfl, by sl_kernel_rfl, by sl_kernel_rfl, by sl_kernel_rfl⟩

theorem tiledB (c : Dev nD) (t : Fin cfg0.N) (h0 : ¬t.val % 8 = 0) (h7 : ¬t.val % 8 = 7) (o : Outs F) : Tiled4 (runB m c t h0 h7 o) :=
  ⟨by sl_kernel_rfl, by sl_kernel_rfl, by sl_kernel_rfl, by sl_kernel_rfl⟩

theorem tiledC (c : Dev nD) (t : Fin cfg0.N) (h0 : ¬t.val % 8 = 0) (h7 : t.val % 8 = 7) (o : Outs F) : Tiled6 (runC m c t h0 h7 o) :=
  ⟨by sl_kernel_rfl, by sl_kernel_rfl, by sl_kernel_rfl, by sl_kernel_rfl, by sl_kernel_rfl, by sl_kernel_rfl⟩

/-- The outputs and the scratch columns after the body at position `n`: a row's first tile starts afresh, the others
    from what the tile before left. -/
def outsAt0 (c : Dev nD) : (n : ℕ) → n < cfg0.N → Outs F
  | 0, hn => leftScratch (runA m c ⟨0, hn⟩ (Nat.zero_mod _) (show ¬0 % 8 = 7 by decide))
  | n + 1, hn =>
    if h0 : (n + 1) % 8 = 0 then leftScratch (runA m c ⟨n + 1, hn⟩ h0 (show ¬(n + 1) % 8 = 7 by omega))
    else if h7 : (n + 1) % 8 = 7 then leftAll (runC m c ⟨n + 1, hn⟩ h0 h7 (outsAt0 c n (Nat.lt_of_succ_lt hn)))
    else leftScratch (runB m c ⟨n + 1, hn⟩ h0 h7 (outsAt0 c n (Nat.lt_of_succ_lt hn)))

/-- What the point before `t` left. -/
abbrev prevOuts (c : Dev nD) (t : Fin cfg0.N) : Outs F := outsAt0 m c (t.val - 1) (Nat.lt_of_le_of_lt (Nat.sub_le _ _) t.isLt)

theorem outsAt0_A (c : Dev nD) (t : Fin cfg0.N) (h0 : t.val % 8 = 0) (h7 : ¬t.val % 8 = 7) :
    outsAt0 m c t.val t.isLt = leftScratch (runA m c t h0 h7) := by
  obtain ⟨n, hn⟩ := t
  cases n with
  | zero => rfl
  | succ n => exact dif_pos h0

theorem outsAt0_B (c : Dev nD) (t : Fin cfg0.N) (h0 : ¬t.val % 8 = 0) (h7 : ¬t.val % 8 = 7) :
    outsAt0 m c t.val t.isLt = leftScratch (runB m c t h0 h7 (prevOuts m c t)) := by
  obtain ⟨n, hn⟩ := t
  cases n with
  | zero => exact absurd (Nat.zero_mod 8) h0
  | succ n => exact (dif_neg h0).trans (dif_neg h7)

theorem outsAt0_C (c : Dev nD) (t : Fin cfg0.N) (h0 : ¬t.val % 8 = 0) (h7 : t.val % 8 = 7) :
    outsAt0 m c t.val t.isLt = leftAll (runC m c t h0 h7 (prevOuts m c t)) := by
  obtain ⟨n, hn⟩ := t
  cases n with
  | zero => exact absurd (Nat.zero_mod 8) h0
  | succ n => exact (dif_neg h0).trans (dif_pos h7)

/-- A whole column written by a tiling list of pieces is owned at the pieces read back. -/
theorem owns_readBack (c : Dev nD) (a : Memref sig .tc .vmem S1024x1 .f32) (L : Pcs F) (hL : View.Piece.tiledL L S1024x1.size = true) :
    (iprop(∃ f, a.view.loc (c : Thread nD τ) ↦[a.view.set]{fullShare} a.view.writes (Elt F) f L) : sProp 𝕄)
      ⊢ owns (c : Thread nD τ) a fullShare (readBack L) := by
  iintro ⟨%f, H⟩
  unfold owns readBack; iexists _; isplitr
  swap; · iexact H
  ipureintro; exact View.read_writes_of_cover _ _ _ _ _ (View.cover_of_tiledL L _ hL)

/-- Before position `n` the region owns the scratch columns: at anything before the first point, afterwards at what
    the point before left. -/
def PhiS (c : Dev nD) : (n : ℕ) → n ≤ cfg0.N → sProp 𝕄
  | 0, _ => Pipeline.ΦA spec0 c
  | n + 1, hn => iprop(iprop(owns (c : Thread nD τ) scM0 fullShare (outsAt0 m c n hn).2.2.1 ∗ owns (c : Thread nD τ) scM1 fullShare (outsAt0 m c n hn).2.2.2.1 ∗ owns (c : Thread nD τ) scM2 fullShare (outsAt0 m c n hn).2.2.2.2.1 ∗ owns (c : Thread nD τ) scM3 fullShare (outsAt0 m c n hn).2.2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (outsAt0 m c n hn).2.2.1 ∗ owns (c : Thread nD τ) scM1 fullShare (outsAt0 m c n hn).2.2.2.1 ∗ owns (c : Thread nD τ) scM2 fullShare (outsAt0 m c n hn).2.2.2.2.1 ∗ owns (c : Thread nD τ) scM3 fullShare (outsAt0 m c n hn).2.2.2.2.2) ∗ (∃ r, prngReg c r)) := rfl

theorem PhiS_pos (c : Dev nD) (n : ℕ) (h : n ≤ cfg0.N) (hz : n ≠ 0) :
    PhiS m c n h = iprop(iprop(owns (c : Thread nD τ) scM0 fullShare (outsAt0 m c (n - 1) (by omega)).2.2.1 ∗ owns (c : Thread nD τ) scM1 fullShare (outsAt0 m c (n - 1) (by omega)).2.2.2.1 ∗ owns (c : Thread nD τ) scM2 fullShare (outsAt0 m c (n - 1) (by omega)).2.2.2.2.1 ∗ owns (c : Thread nD τ) scM3 fullShare (outsAt0 m c (n - 1) (by omega)).2.2.2.2.2) ∗ (∃ r, prngReg c r)) := by
  cases n with
  | zero => exact absurd rfl hz
  | succ n => rfl

/-- Whatever the scratch columns hold, they are owned at some contents. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨HS0, HS1, HS2, HS3⟩, Hg⟩
    isplitl [HS0 HS1 HS2 HS3]
    · isplitl [HS0]; · iexists _; iexact HS0
      isplitl [HS1]; · iexists _; iexact HS1
      isplitl [HS2]; · iexists _; iexact HS2
      iexists _; iexact HS3
    iexact Hg

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the point's case runs; the invariant lends it the scratch columns and takes them back at what
    the stored pieces leave, and an output is handed back as found unless the row ends here. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h7 : t.val % 8 = 7
  · have h0 : ¬t.val % 8 = 0 := by omega
    rw [show (dats m 0 c).leavesExact 4 t = owns (c : Thread nD τ) (ms0_4 t) fullShare ((dats m 0 c).after 4 t) from by
      unfold Dat.leavesExact; rw [liveAt0_4 t ((hcondC t).mpr h7)], after0_4]
    rw [show (dats m 0 c).leavesExact 5 t = owns (c : Thread nD τ) (ms0_5 t) fullShare ((dats m 0 c).after 5 t) from by
      unfold Dat.leavesExact; rw [liveAt0_5 t ((hcondC t).mpr h7)], after0_5]
    rw [outsAt0_C m c t h0 h7]
    obtain ⟨T4, T5, T0, T1, T2, T3⟩ := tiledC m c t h0 h7 (prevOuts m c t)
    unfold leftAll; (try dsimp only)
    rw [PhiS_pos m c _ _ (show t.val ≠ 0 by omega)]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((runC m c t h0 h7 (prevOuts m c t)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iapply owns_readBack c _ _ T0; iexact HS0
        isplitl [HS1]; · iapply owns_readBack c _ _ T1; iexact HS1
        isplitl [HS2]; · iapply owns_readBack c _ _ T2; iexact HS2
        iapply owns_readBack c _ _ T3; iexact HS3
      iexact Hg
    isplitl [Ho]; · iexact Ho
    isplitl [H0]; · iexact H0
    isplitl [H1]; · iexact H1
    isplitl [H2]; · iexact H2
    isplitl [H3]; · iexact H3
    isplitl [H4]; · iapply owns_readBack c _ _ T4; iexact H4
    iapply owns_readBack c _ _ T5; iexact H5
  rw [Dat.leavesExact_idle (dats m 0 c) 4 t (idleAt0_4 t (fun h => h7 ((hcondC t).mp h))) (noFlush0_4 t (fun h => h7 ((hcondC t).mp h)))]
  rw [Dat.leavesExact_idle (dats m 0 c) 5 t (idleAt0_5 t (fun h => h7 ((hcondC t).mp h))) (noFlush0_5 t (fun h => h7 ((hcondC t).mp h)))]
  by_cases h0 : t.val % 8 = 0
  case' pos =>
    rw [outsAt0_A m c t h0 h7]
    obtain ⟨T0, T1, T2, T3⟩ := tiledA m c t h0 h7
    unfold leftScratch; (try dsimp only)
    refine (sep_mono_left (PhiS_any m c _ _)).trans ?_
    rw [PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((runA m c t h0 h7).2.2.2.2 _ _ Set.univ _)
  case' neg =>
    rw [outsAt0_B m c t h0 h7]
    obtain ⟨T0, T1, T2, T3⟩ := tiledB m c t h0 h7 (prevOuts m c t)
    unfold leftScratch; (try dsimp only)
    rw [PhiS_pos m c _ _ (show t.val ≠ 0 by omega)]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((runB m c t h0 h7 (prevOuts m c t)).2.2.2.2 _ _ Set.univ _)
  all_goals
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iapply owns_readBack c _ _ T0; iexact HS0
        isplitl [HS1]; · iapply owns_readBack c _ _ T1; iexact HS1
        isplitl [HS2]; · iapply owns_readBack c _ _ T2; iexact HS2
        iapply owns_readBack c _ _ T3; iexact HS3
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := PhiS_any m c (Fin.last cfg0.N).val _

end Cert.Kernel.Hand

end
-- ==== Proof.KPre.lean ====
import proofs.«144165_j35948876268190_1_alg».proof.Proof.Gen.KernelIdeal.Launch
import proofs.«144165_j35948876268190_1_alg».proof.Proof.Gen.KernelIdeal.Skeleton
import proofs.«144165_j35948876268190_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

abbrev preOps : List (HloOp τ sig (Elt F)) := List.flatten [hostOps0, hostOps0_1, hostOps0_2]

/-- The arrays as the region finds them, after the host operations before it; an input window's block at a point. -/
abbrev V0 (c : Dev nD) : Valuation τ sig (Elt F) := StableHlo.after (preOps (F := F)) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KSets.lean ====
import proofs.«144165_j35948876268190_1_alg».proof.Proof.KPre

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (ucRefs)

variable {F : FTy → Type} [FloatOps F] [Named F]

abbrev dr (b : Ref sig .tc) : DevRef τ sig := Proc.devRef .tc b

/-- The arrays under the region's windows, its two outputs among them, and what the host operations after it may touch. -/
def Tarr : Finset (DevRef τ sig) := {dr main_v7, dr main_v8, dr main_v9, dr main_v10_0, dr main_v10_1}

def Tout : Finset (DevRef τ sig) := {dr main_v10_0, dr main_v10_1}

def Stail : Finset (DevRef τ sig) := Tout ∪ (ucRefs τ sig \ Tarr)

theorem Tarr_sub : Tarr ⊆ ucRefs τ sig := by
  decide
theorem Tout_disj : Disjoint Tout (ucRefs τ sig \ Tarr) := by
  decide
theorem v10_0_not_rest : ∀ b ∈ ucRefs τ sig \ Tarr, b ≠ dr main_v10_0 ∧ b ≠ dr main_v10_1 := by
  decide
theorem mem_Stail_v15 : dr main_v15 ∈ Stail := by
  decide
theorem mem_Stail_arg0 : dr main_arg0 ∈ Stail := by
  decide
theorem mem_Stail_arg1 : dr main_arg1 ∈ Stail := by
  decide

theorem hostOps1_Stail : ∀ op ∈ (hostOps1 : List (HloOp τ sig (Elt F))), op.bufs ⊆ Stail := by
  intro op hop
  simp only [List.mem_cons, List.mem_nil_iff, or_false] at hop
  rcases hop with rfl | rfl | rfl | rfl | rfl | rfl | rfl | rfl | rfl
  all_goals first
    | (rw [StableHlo.nullary_bufs]; decide)
    | (rw [StableHlo.binary_bufs]; decide)

variable (m : (ℓ : Loc nD τ sig) → Buf (Elt F) ℓ)

theorem V0_arg0 (c : Dev nD) : V0 m c (dr main_arg0) = m (c, dr main_arg0) := by
  refine StableHlo.after_of_forall_not_mem (preOps (F := F)) (fun b => m (c, b)) ?_
  intro op hop
  simp only [preOps, List.flatten_cons, List.flatten_nil, List.append_nil, List.mem_append, List.mem_cons,
    List.mem_nil_iff, or_false] at hop
  rcases hop with (rfl | rfl) | (rfl | rfl | rfl | rfl | rfl) | (rfl | rfl | rfl | rfl | rfl | rfl | rfl | rfl) <;>
    simp only [StableHlo.unary_writes, StableHlo.binary_writes, StableHlo.nullary_writes, StableHlo.reshape_writes, Finset.mem_singleton] <;>
    exact StableHlo.devRef_ne_of_ne (by decide)
theorem V0_arg1 (c : Dev nD) : V0 m c (dr main_arg1) = m (c, dr main_arg1) := by
  refine StableHlo.after_of_forall_not_mem (preOps (F := F)) (fun b => m (c, b)) ?_
  intro op hop
  simp only [preOps, List.flatten_cons, List.flatten_nil, List.append_nil, List.mem_append, List.mem_cons,
    List.mem_nil_iff, or_false] at hop
  rcases hop with (rfl | rfl) | (rfl | rfl | rfl | rfl | rfl) | (rfl | rfl | rfl | rfl | rfl | rfl | rfl | rfl) <;>
    simp only [StableHlo.unary_writes, StableHlo.binary_writes, StableHlo.nullary_writes, StableHlo.reshape_writes, Finset.mem_singleton] <;>
    exact StableHlo.devRef_ne_of_ne (by decide)

theorem tail_arg0 (W : Valuation τ sig (Elt F)) : StableHlo.after (hostOps1 (F := F)) W (dr main_arg0) = W (dr main_arg0) := by
  refine StableHlo.after_of_forall_not_mem _ W ?_
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)
theorem tail_arg1 (W : Valuation τ sig (Elt F)) : StableHlo.after (hostOps1 (F := F)) W (dr main_arg1) = W (dr main_arg1) := by
  refine StableHlo.after_of_forall_not_mem _ W ?_
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

end Cert.KernelIdeal.Hand

end
-- ==== Proof.KLaunch.lean ====
import proofs.«144165_j35948876268190_1_alg».proof.Proof.KSets

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W₀ (c : Dev nD) : Valuation τ sig (Elt F) := fun b => m (c, b)

abbrev W₁ (c : Dev nD) : Valuation τ sig (Elt F) := StableHlo.after (hostOps0 (F := F)) (W₀ m c)
abbrev W₂ (c : Dev nD) : Valuation τ sig (Elt F) := StableHlo.after (hostOps0_1 (F := F)) (W₁ m c)
abbrev W₃ (c : Dev nD) : Valuation τ sig (Elt F) := StableHlo.after (hostOps0_2 (F := F)) (W₂ m c)

theorem W₃_eq (c : Dev nD) : W₃ m c = V0 m c := by
  unfold W₃ W₂ W₁ V0 preOps
  simp only [List.flatten_cons, List.flatten_nil, List.append_nil, StableHlo.after_append]

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

abbrev R (c : Dev nD) : sProp 𝕄 :=
  iprop((∃ W, owes (c : Thread nD τ) (0 : CellTallies nD τ sig Unit) W) ∗ ∃ r, prngReg c r)

theorem hostOps0_fresh : ∀ op ∈ (hostOps0 : List (HloOp τ sig (Elt F))), op.fresh = ∅ := by
  intro _ h; (repeat (cases h with | head => rfl | tail _ h => ?_)); exact nomatch h
theorem hostOps0_1_fresh : ∀ op ∈ (hostOps0_1 : List (HloOp τ sig (Elt F))), op.fresh = ∅ := by
  intro _ h; (repeat (cases h with | head => rfl | tail _ h => ?_)); exact nomatch h
theorem hostOps0_2_fresh : ∀ op ∈ (hostOps0_2 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

def segA : Pipeline.HostSeg (Name := ℕ) (U := UR sig nD τ) (pcfgs (F := F)) defs₀ 𝒱₀ L lv :=
  Pipeline.HostSeg.ofOps _ _ _ _ _ (ucRefs τ sig) hostOps0
    (fun op h => Pipeline.sub_ucRefs op ((List.forall_iff_forall_mem.mp hostOps0_sub) op h)) hostOps0_fresh (W₀ m) R
def segB : Pipeline.HostSeg (Name := ℕ) (U := UR sig nD τ) (pcfgs (F := F)) defs₀ 𝒱₀ L lv :=
  Pipeline.HostSeg.ofOps _ _ _ _ _ (ucRefs τ sig) hostOps0_1
    (fun op h => Pipeline.sub_ucRefs op ((List.forall_iff_forall_mem.mp hostOps0_1_sub) op h)) hostOps0_1_fresh (W₁ m) R
def segC : Pipeline.HostSeg (Name := ℕ) (U := UR sig nD τ) (pcfgs (F := F)) defs₀ 𝒱₀ L lv :=
  Pipeline.HostSeg.ofOps _ _ _ _ _ (ucRefs τ sig) hostOps0_2
    (fun op h => Pipeline.sub_ucRefs op ((List.forall_iff_forall_mem.mp hostOps0_2_sub) op h)) hostOps0_2_fresh (W₂ m) R

section Region

variable (dats : (p : Fin 1) → (c : Dev nD) → Dat τ (Elt F) Unit ℕ (UR sig nD τ) ℕ (cfgs p) c)

abbrev pt (c : Dev nD) (b : Ref sig .tc) (q : PosShare TreeShare) (f : Buf (Elt F) ((c : Thread nD τ).loc b)) : sProp 𝕄 :=
  ((c : Thread nD τ).loc b) ↦{q} f

theorem held_Tarr (c : Dev nD) (W : Valuation τ sig (Elt F)) :
    (StableHlo.held (c : Thread nD τ) Tarr W : sProp 𝕄)
      = iprop(pt c main_v7 fullShare (W (dr main_v7)) ∗ pt c main_v8 fullShare (W (dr main_v8)) ∗ pt c main_v9 fullShare (W (dr main_v9))
          ∗ pt c main_v10_0 fullShare (W (dr main_v10_0)) ∗ pt c main_v10_1 fullShare (W (dr main_v10_1))) := by
  unfold StableHlo.held Tarr
  exact bigSep_eq_bigSepL_of_eq [dr main_v7, dr main_v8, dr main_v9, dr main_v10_0, dr main_v10_1] (by decide) (by decide) _

theorem held_Tout (c : Dev nD) (W : Valuation τ sig (Elt F)) :
    (StableHlo.held (c : Thread nD τ) Tout W : sProp 𝕄)
      = iprop(pt c main_v10_0 fullShare (W (dr main_v10_0)) ∗ pt c main_v10_1 fullShare (W (dr main_v10_1))) := by
  unfold StableHlo.held Tout
  exact bigSep_eq_bigSepL_of_eq [dr main_v10_0, dr main_v10_1] (by decide) (by decide) _

theorem arrays_chain (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare) (c : Dev nD)
    (G : (w : Fin cfg0.W) → Buf (Elt F) ((cfg0.win w).arr.view.loc (c : Thread nD τ))) :
    ((dats 0 c).arrays G : sProp 𝕄)
      = iprop(pt c main_v7 fullShare.left (G 0) ∗ pt c main_v7 fullShare.right (G 1) ∗ pt c main_v8 fullShare (G 2)
          ∗ pt c main_v9 fullShare (G 3) ∗ pt c main_v10_0 fullShare (G 4) ∗ pt c main_v10_1 fullShare (G 5)) := by
  have e : ((dats 0 c).arrays G : sProp 𝕄)
      = bigSep Finset.univ fun w : Fin 6 => (((c : Thread nD τ).loc (Pipeline.arrRef spec0 w)) ↦{(dats 0 c).share w} G w : sProp 𝕄) := by
    unfold Dat.arrays
    exact bigSep_congr fun w _ => by rw [(arr_whole0 w).set_eq_univ]
  have s0 : (dats 0 c).share 0 = fullShare.left := by unfold Dat.share; rw [if_neg (by decide)]; exact hq0 c
  have s1 : (dats 0 c).share 1 = fullShare.right := by unfold Dat.share; rw [if_neg (by decide)]; exact hq1 c
  have s2 : (dats 0 c).share 2 = fullShare := by unfold Dat.share; rw [if_neg (by decide)]; exact hq2 c
  have s3 : (dats 0 c).share 3 = fullShare := by unfold Dat.share; rw [if_neg (by decide)]; exact hq3 c
  have s4 : (dats 0 c).share 4 = fullShare := by unfold Dat.share; rw [if_pos (by decide)]
  have s5 : (dats 0 c).share 5 = fullShare := by unfold Dat.share; rw [if_pos (by decide)]
  rw [e, bigSep_W0, s0, s1, s2, s3, s4, s5]

variable (hA : ∀ c w, (dats 0 c).A w = V m c (Pipeline.arrRef spec0 w))
  (hq0 : ∀ c, (dats 0 c).q 0 = fullShare.left) (hq1 : ∀ c, (dats 0 c).q 1 = fullShare.right)
  (hq2 : ∀ c, (dats 0 c).q 2 = fullShare) (hq3 : ∀ c, (dats 0 c).q 3 = fullShare)
  (howed : ∀ c t, (dats 0 c).owed t = 0) (hrec : ∀ c t, (dats 0 c).recorded t = Set.univ)
  (hbody : ∀ c, BodyObligation (dats 0 c) (defs₀ (F := F)) 𝒱₀ () Set.univ)
  (hin : ∀ c, Pipeline.ΦA spec0 c ⊢ (dats 0 c).Φ 0)
  (hout : ∀ c, (dats 0 c).Φ (Fin.last cfg0.N) ⊢ Pipeline.ΦA spec0 c)

def Vpost (c : Dev nD) : Valuation τ sig (Elt F) :=
  Function.update (Function.update (V0 m c) (dr main_v10_0) ((dats 0 c).arrAt 4 cfg0.N)) (dr main_v10_1) ((dats 0 c).arrAt 5 cfg0.N)

theorem Vpost_out1 (c : Dev nD) : Vpost m dats c (dr main_v10_1) = (dats 0 c).arrAt 5 cfg0.N := by
  unfold Vpost; exact Function.update_self ..
theorem Vpost_out0 (c : Dev nD) : Vpost m dats c (dr main_v10_0) = (dats 0 c).arrAt 4 cfg0.N := by
  unfold Vpost
  rw [Function.update_of_ne (StableHlo.devRef_ne_of_ne (by decide))]
  exact Function.update_self ..
theorem Vpost_rest (c : Dev nD) (b : DevRef τ sig) (hb : b ∈ ucRefs τ sig \ Tarr) : Vpost m dats c b = V0 m c b := by
  unfold Vpost
  rw [Function.update_of_ne (v10_0_not_rest b hb).2, Function.update_of_ne (v10_0_not_rest b hb).1]

abbrev Pin (c : Dev nD) : sProp 𝕄 :=
  iprop(pt c main_v7 fullShare.left (V m c main_v7) ∗ pt c main_v7 fullShare.right (V m c main_v7)
    ∗ pt c main_v8 fullShare (V m c main_v8) ∗ pt c main_v9 fullShare (V m c main_v9))

theorem held_Stail (c : Dev nD) (W : Valuation τ sig (Elt F)) :
    (StableHlo.held (c : Thread nD τ) Stail W : sProp 𝕄)
      = iprop(StableHlo.held (c : Thread nD τ) Tout W ∗ StableHlo.held (c : Thread nD τ) (ucRefs τ sig \ Tarr) W) := by
  unfold StableHlo.held Stail
  exact bigSep_union Tout_disj

set_option backward.isDefEq.respectTransparency.types false in
/-- The region between the host stretches; the two embedding windows share one array, held as two half shares. -/
def reg0 : Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 howed
  pre c := iprop(StableHlo.held (c : Thread nD τ) (ucRefs τ sig) (W₃ m c) ∗ R c)
  post c := iprop(StableHlo.held (c : Thread nD τ) Stail (Vpost m dats c) ∗ (Pin m c ∗ R c))
  X c := iprop(∃ r, prngReg c r)
  Y c := iprop(∃ r, prngReg c r)
  Z c := StableHlo.held (c : Thread nD τ) (ucRefs τ sig \ Tarr) (V0 m c)
  hentry c := by
    have e : ∀ w, (dats 0 c).arrAt w 0 = V m c (Pipeline.arrRef spec0 w) := fun w => hA c w
    rw [W₃_eq, StableHlo.held_sub_split (c : Thread nD τ) Tarr_sub (V0 m c), held_Tarr, arrays_chain dats hq0 hq1 hq2 hq3 c,
      e 0, e 1, e 2, e 3, e 4, e 5]
    unfold Pipeline.Dat.owesAt Pipeline.owesWithin
    rw [howed]
    iintro ⟨⟨⟨⟨H7, H8, H9, H10, H11⟩, Hrest⟩, ⟨%W, HO⟩, Hp⟩, -, -⟩
    have hsh : pt c main_v7 fullShare (V0 m c (dr main_v7))
        ⊢ (iprop(pt c main_v7 fullShare.left (V0 m c (dr main_v7)) ∗ pt c main_v7 fullShare.right (V0 m c (dr main_v7))) : sProp 𝕄) :=
      (pointsTo_share (PosShare.mem_left_op_right fullShare)).1
    ihave H7' := hsh $$ H7
    icases H7' with ⟨H7l, H7r⟩
    imodintro
    isplitl [H7l H7r H8 H9 H10 H11]
    · isplitl [H7l]; · iexact H7l
      isplitl [H7r]; · iexact H7r
      isplitl [H8]; · iexact H8
      isplitl [H9]; · iexact H9
      isplitl [H10]; · iexact H10
      iexact H11
    isplitr
    · unfold Pipeline.prefHeld; rw [show (Finset.univ : Finset (Fin 0)) = ∅ from rfl, BI.bigSep_empty]; iempintro
    isplitl [HO]
    · iexists W; isplitr; · ipureintro; exact fun _ _ => Or.inl (by rw [hrec c]; exact Set.mem_univ _)
      iexact HO
    isplitl [Hp]; · iexact Hp
    iexact Hrest
  hin c := by
    refine BIBase.Entails.trans ?_ (hin c)
    unfold Pipeline.ΦA
    iintro ⟨Hp, -, Hr⟩
    isplitl [Hr] <;> iassumption
  hout c := by
    refine (hout c).trans ?_
    rw [Pipeline.ownSems0_none]; unfold Pipeline.ΦA
    iintro ⟨Hr, Hp⟩
    isplitl [Hp]; · iexact Hp
    isplitr; · iempintro
    iexact Hr
  hexit c := by
    have e0 : (dats 0 c).arrAt 0 cfg0.N = V m c main_v7 := ((dats 0 c).arrAt_in 0 rfl _).trans (hA c 0)
    have e1 : (dats 0 c).arrAt 1 cfg0.N = V m c main_v7 := ((dats 0 c).arrAt_in 1 rfl _).trans (hA c 1)
    have e2 : (dats 0 c).arrAt 2 cfg0.N = V m c main_v8 := ((dats 0 c).arrAt_in 2 rfl _).trans (hA c 2)
    have e3 : (dats 0 c).arrAt 3 cfg0.N = V m c main_v9 := ((dats 0 c).arrAt_in 3 rfl _).trans (hA c 3)
    rw [arrays_chain dats hq0 hq1 hq2 hq3 c, held_Stail, held_Tout, Vpost_out0, Vpost_out1,
      StableHlo.held_congr (c : Thread nD τ) (fun b hb => Vpost_rest m dats c b hb), e0, e1, e2, e3]
    unfold Pipeline.Dat.owesAt Pipeline.owesWithin
    rw [howed]
    iintro ⟨⟨H7l, H7r, H8, H9, H10, H11⟩, ⟨%W, -, HO⟩, Hp, Hrest⟩
    imodintro
    isplitl [H10 H11 Hrest]
    · isplitl [H10 H11]
      · isplitl [H10]; · iexact H10
        iexact H11
      iexact Hrest
    isplitl [H7l H7r H8 H9]
    · isplitl [H7l]; · iexact H7l
      isplitl [H7r]; · iexact H7r
      isplitl [H8]; · iexact H8
      iexact H9
    isplitl [HO]
    · iexists W; iexact HO
    iexact Hp

theorem arg0_rest : dr main_arg0 ∈ ucRefs τ sig \ Tarr := by decide
theorem arg1_rest : dr main_arg1 ∈ ucRefs τ sig \ Tarr := by decide

def segT : Pipeline.HostSeg (Name := ℕ) (U := UR sig nD τ) (pcfgs (F := F)) defs₀ 𝒱₀ L lv :=
  Pipeline.HostSeg.ofOps _ _ _ _ _ Stail hostOps1 hostOps1_Stail hostOps1_fresh (Vpost m dats) (fun c => iprop(Pin m c ∗ R c))

def QF (c : Dev nD) (s : MemSt nD τ sig (Elt F)) : Prop :=
  s.mem ((c : Thread nD τ).loc main_v15) = StableHlo.after (hostOps1 (F := F)) (Vpost m dats c) (dr main_v15)
    ∧ s.mem ((c : Thread nD τ).loc main_arg0) = m ((c : Thread nD τ).loc main_arg0)
    ∧ s.mem ((c : Thread nD τ).loc main_arg1) = m ((c : Thread nD τ).loc main_arg1)

include hA hq0 hq1 hq2 hq3 howed hrec hbody hin hout in
set_option backward.isDefEq.respectTransparency.types false in
/-- @main as three host stretches, the region and the host tail, against the launch theorem for a list of segments. -/
theorem run_of : θ_run defs (onTc (τ := τ) (main (F := F))) ⟨m, fun _ => 0, ρ⟩ (fun r => ∀ c : Dev nD, QF m dats c r.2) :=
  Pipeline.θ_run_regions_kit (pcfgs (F := F)) adm dats () cellOf_inj emb₁ defs₀ 𝒱₀ L lv m ρ main
    [.host (segA m), .host (segB m), .host (segC m),
      .region (reg0 m dats hA hq0 hq1 hq2 hq3 howed hrec hbody hin hout), .host (segT m dats)]
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (W₀ m c) ∗ R c))
    (Tₙ := fun c => iprop(StableHlo.held (c : Thread nD τ) Stail (StableHlo.after (hostOps1 (F := F)) (Vpost m dats c)) ∗ Pin m c ∗ ∃ r, prngReg c r))
    (hch := ⟨fun _ => .rfl, fun _ => .rfl, fun _ => .rfl, fun _ => .rfl, fun _ => .rfl, fun c => by
      show (iprop(StableHlo.held (c : Thread nD τ) Stail (StableHlo.after (hostOps1 (F := F)) (Vpost m dats c)) ∗ (Pin m c ∗ R c)) : sProp 𝕄) ⊢ _
      iintro ⟨Hh, Hpin, HO, Hp⟩
      isplitr [HO]
      · isplitl [Hh]; · iexact Hh
        isplitl [Hpin]; · iexact Hpin
        iexact Hp
      iexact HO⟩)
    (hinit := by
      refine Pipeline.initEach L lv fun c => ?_
      rw [show unscopedBufs c (fun b => m ((c : Thread nD τ).loc b)) = StableHlo.held (c : Thread nD τ) (ucRefs τ sig) (W₀ m c) from Pipeline.unscopedBufs_held c (W₀ m c)]
      iintro ⟨⟨Hh, -, HO, -, Hp, -⟩, -⟩
      imodintro
      isplitl [Hh]; · iexact Hh
      isplitl [HO]; · iexists ∅; iexact HO
      iexists _; iexact Hp)
    (QY := QF m dats)
    (hfin := fun c s' => by
      unfold StableHlo.held
      iintro ⟨⟨Hh, -, -⟩, HSI⟩
      ihave Hr := (pointsTo_read_all Stail (fun b => ((c : Thread nD τ).1, b)) (StableHlo.after (hostOps1 (F := F)) (Vpost m dats c)) s') $$ [Hh HSI]
      · isplitl [Hh] <;> iassumption
      icases Hr with ⟨%hr, HSI⟩
      imodintro
      isplitr
      · ipureintro
        exact ⟨hr _ mem_Stail_v15,
          (hr _ mem_Stail_arg0).trans ((tail_arg0 _).trans ((Vpost_rest m dats c _ arg0_rest).trans (V0_arg0 m c))),
          (hr _ mem_Stail_arg1).trans ((tail_arg1 _).trans ((Vpost_rest m dats c _ arg1_rest).trans (V0_arg1 m c)))⟩
      iexact HSI)
    (hQ := fun _ h => h)

end Region

end Cert.KernelIdeal.Hand

end
-- ==== Proof.KRuns.lean ====
import proofs.«144165_j35948876268190_1_alg».proof.Proof.KPre
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The first branch is taken exactly where a row of column tiles begins, the second where it ends. -/
abbrev condA (i : grid0.Coords) : Prop := (Scalar.cmpi .ne (Scalar.extui (Scalar.cmpi .eq (BitVec.ofNat 32 (i 1).val) 0#32)) 0#32) = 1#1

theorem hcondA : ∀ t : Fin cfg0.N, condA (grid0.coords t) ↔ t.val % 8 = 0 :=
  (by decide +kernel : ∀ t : Fin grid0.N, condA (grid0.coords t) ↔ t.val % 8 = 0)

abbrev condC (i : grid0.Coords) : Prop := k0_cond2 i = 1#1

theorem hcondC : ∀ t : Fin cfg0.N, condC (grid0.coords t) ↔ t.val % 8 = 7 :=
  (by decide +kernel : ∀ t : Fin grid0.N, condC (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬condC (grid0.coords t) → cfg0.idle 4 (grid0.coords t) = true := by decide +kernel
theorem noFlush0_4 : ∀ t : Fin cfg0.N, ¬condC (grid0.coords t) → (cfg0.win 4).flush t = false := by decide +kernel
theorem idleAt0_5 : ∀ t : Fin cfg0.N, ¬condC (grid0.coords t) → cfg0.idle 5 (grid0.coords t) = true := by decide +kernel
theorem noFlush0_5 : ∀ t : Fin cfg0.N, ¬condC (grid0.coords t) → (cfg0.win 5).flush t = false := by decide +kernel

theorem liveAt0_4 : ∀ t : Fin cfg0.N, condC (grid0.coords t) → cfg0.idle 4 (grid0.coords t) = false := by decide +kernel
theorem liveAt0_5 : ∀ t : Fin cfg0.N, condC (grid0.coords t) → cfg0.idle 5 (grid0.coords t) = false := by decide +kernel

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)

abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev scM3 : Memref sig .tc .vmem S1024x1 .f32 := Memref.whole cc0_scratch3

abbrev VS : View sig .tc .vmem S1024x1 .f32 := scM0.view

/-- Between points the region owns the four scratch columns at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- A list of stored pieces of a column of 1024 words. -/
abbrev Pcs (F : FTy → Type) := List (View.Piece (Elt F) S1024x1 .f32)

section Body

variable (c : Dev nD) (i : grid0.Coords)
  (arg2 : Memref sig .tc .vmem S1024x256 .bf16) (harg2 : arg2.IsWhole)
  (arg3 : Memref sig .tc .vmem S512x256 .bf16) (harg3 : arg3.IsWhole)
  (arg4 : Memref sig .tc .vmem S1024x1 .i32) (harg4 : arg4.IsWhole)
  (arg5 : Memref sig .tc .vmem S1x512 .i32) (harg5 : arg5.IsWhole)
  (arg6 : Memref sig .tc .vmem S1024x1 .f32) (harg6 : arg6.IsWhole)
  (arg7 : Memref sig .tc .vmem S1024x1 .f32) (harg7 : arg7.IsWhole)
  (arg8 : Memref sig .tc .vmem S1024x1 .f32) (harg8 : arg8.IsWhole)
  (arg9 : Memref sig .tc .vmem S1024x1 .f32) (harg9 : arg9.IsWhole)
  (arg10 : Memref sig .tc .vmem S1024x1 .f32) (harg10 : arg10.IsWhole)
  (arg11 : Memref sig .tc .vmem S1024x1 .f32) (harg11 : arg11.IsWhole)

set_option maxHeartbeats 1000000 in
/-- At a row's first tile every scratch column is stored whole before it is read, so it may start at anything; the pieces stored are the witness. -/
noncomputable def kernelRun0_A (hcA : condA i) (hcC : ¬condC i)
    (x2 : Vec F S1024x256 .bf16) (x3 : Vec F S512x256 .bf16) (x4 : Vec F S1024x1 .i32) (x5 : Vec F S1x512 .i32) :
    Σ' (LS0 : Pcs F) (LS1 : Pcs F) (LS2 : Pcs F), { LS3 : Pcs F //
      ∀ (xi4 xi5 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__loss_kernel_eq_skeleton]; unfold cc0__loss_kernel_skel
    simp only [k0_part2_eq_skeleton]; unfold k0_part2_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hcA | exact hcC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    isplitl [HS1]; · iexists _; iexact HS1
    isplitl [HS2]; · iexists _; iexact HS2
    iexists _; iexact HS3

set_option maxHeartbeats 1000000 in
/-- Inside a row the scratch columns start at what the tile before left. -/
noncomputable def kernelRun0_B (hcA : ¬condA i) (hcC : ¬condC i)
    (x2 : Vec F S1024x256 .bf16) (x3 : Vec F S512x256 .bf16) (x4 : Vec F S1024x1 .i32) (x5 : Vec F S1x512 .i32) (xs0 xs1 xs2 xs3 : Vec F S1024x1 .f32) :
    Σ' (LS0 : Pcs F) (LS1 : Pcs F) (LS2 : Pcs F), { LS3 : Pcs F //
      ∀ (xi4 xi5 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__loss_kernel_eq_skeleton]; unfold cc0__loss_kernel_skel
    simp only [k0_part2_eq_skeleton]; unfold k0_part2_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    obtain rfl := harg8.eq_unread hfs0; obtain rfl := harg9.eq_unread hfs1; obtain rfl := harg10.eq_unread hfs2; obtain rfl := harg11.eq_unread hfs3
    sl_exec (disch := first | exact hcA | exact hcC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]; · iexists _; iexact HS0
    isplitl [HS1]; · iexists _; iexact HS1
    isplitl [HS2]; · iexists _; iexact HS2
    iexists _; iexact HS3

set_option maxHeartbeats 1000000 in
/-- At a row's last tile both outputs are stored whole as well. -/
noncomputable def kernelRun0_C (hcA : ¬condA i) (hcC : condC i)
    (x2 : Vec F S1024x256 .bf16) (x3 : Vec F S512x256 .bf16) (x4 : Vec F S1024x1 .i32) (x5 : Vec F S1x512 .i32) (xs0 xs1 xs2 xs3 : Vec F S1024x1 .f32) :
    Σ' (L4 : Pcs F) (L5 : Pcs F) (LS0 : Pcs F) (LS1 : Pcs F) (LS2 : Pcs F), { LS3 : Pcs F //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__loss_kernel_eq_skeleton]; unfold cc0__loss_kernel_skel
    simp only [k0_part2_eq_skeleton]; unfold k0_part2_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf2; obtain rfl := harg3.eq_unread hf3; obtain rfl := harg4.eq_unread hf4; obtain rfl := harg5.eq_unread hf5
    obtain rfl := harg8.eq_unread hfs0; obtain rfl := harg9.eq_unread hfs1; obtain rfl := harg10.eq_unread hfs2; obtain rfl := harg11.eq_unread hfs3
    sl_exec (disch := first | exact hcA | exact hcC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Body

end Cert.KernelIdeal.Hand

end
-- ==== Proof.KData.lean ====
import proofs.«144165_j35948876268190_1_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The two output columns and the four scratch columns. -/
abbrev Outs (F : FTy → Type) :=
  Vec F S1024x1 .f32 × Vec F S1024x1 .f32 × Vec F S1024x1 .f32 × Vec F S1024x1 .f32 × Vec F S1024x1 .f32 × Vec F S1024x1 .f32

/-- A column nothing was stored into. -/
def idleOut : Vec F S1024x1 .f32 := VS.read (Elt F) VS.junk

/-- What a list of stored pieces leaves in a column, whatever it held before. -/
def readBack (L : Pcs F) : Vec F S1024x1 .f32 := VS.read (Elt F) (VS.writes (Elt F) VS.junk L)

/-- A run that stores the four scratch columns only. -/
def leftScratch {P : Pcs F → Pcs F → Pcs F → Pcs F → Prop} (r : Σ' (L0 L1 L2 : Pcs F), { L3 : Pcs F // P L0 L1 L2 L3 }) : Outs F :=
  (idleOut, idleOut, readBack r.1, readBack r.2.1, readBack r.2.2.1, readBack r.2.2.2.1)

/-- A run that stores both outputs and the four scratch columns. -/
def leftAll {P : Pcs F → Pcs F → Pcs F → Pcs F → Pcs F → Pcs F → Prop}
    (r : Σ' (L4 L5 L0 L1 L2 : Pcs F), { L3 : Pcs F // P L4 L5 L0 L1 L2 L3 }) : Outs F :=
  (readBack r.1, readBack r.2.1, readBack r.2.2.1, readBack r.2.2.2.1, readBack r.2.2.2.2.1, readBack r.2.2.2.2.2.1)

/-- Every list is a tiling by whole columns. -/
abbrev Tiled4 {P : Pcs F → Pcs F → Pcs F → Pcs F → Prop} (r : Σ' (L0 L1 L2 : Pcs F), { L3 : Pcs F // P L0 L1 L2 L3 }) : Prop :=
  View.Piece.tiledL r.1 S1024x1.size = true ∧ View.Piece.tiledL r.2.1 S1024x1.size = true
    ∧ View.Piece.tiledL r.2.2.1 S1024x1.size = true ∧ View.Piece.tiledL r.2.2.2.1 S1024x1.size = true

abbrev Tiled6 {P : Pcs F → Pcs F → Pcs F → Pcs F → Pcs F → Pcs F → Prop}
    (r : Σ' (L4 L5 L0 L1 L2 : Pcs F), { L3 : Pcs F // P L4 L5 L0 L1 L2 L3 }) : Prop :=
  View.Piece.tiledL r.1 S1024x1.size = true ∧ View.Piece.tiledL r.2.1 S1024x1.size = true ∧ View.Piece.tiledL r.2.2.1 S1024x1.size = true
    ∧ View.Piece.tiledL r.2.2.2.1 S1024x1.size = true ∧ View.Piece.tiledL r.2.2.2.2.1 S1024x1.size = true
    ∧ View.Piece.tiledL r.2.2.2.2.2.1 S1024x1.size = true

/-- The body's run at grid point `t` on the windows' staging buffers and the scratch buffers, from the point's input
    blocks: at a row's first tile, -/
abbrev runA (c : Dev nD) (t : Fin cfg0.N) (h0 : t.val % 8 = 0) (h7 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) scM1 (Memref.isWhole_whole _) scM2 (Memref.isWhole_whole _) scM3 (Memref.isWhole_whole _)
    ((hcondA t).mpr h0) (fun h => h7 ((hcondC t).mp h)) (iblk m c 0 t) (iblk m c 1 t) (iblk m c 2 t) (iblk m c 3 t)

/-- inside a row, from the scratch columns of `o`, -/
abbrev runB (c : Dev nD) (t : Fin cfg0.N) (h0 : ¬t.val % 8 = 0) (h7 : ¬t.val % 8 = 7) (o : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) scM1 (Memref.isWhole_whole _) scM2 (Memref.isWhole_whole _) scM3 (Memref.isWhole_whole _)
    (fun h => h0 ((hcondA t).mp h)) (fun h => h7 ((hcondC t).mp h)) (iblk m c 0 t) (iblk m c 1 t) (iblk m c 2 t) (iblk m c 3 t) o.2.2.1 o.2.2.2.1 o.2.2.2.2.1 o.2.2.2.2.2

/-- and at a row's last tile. -/
abbrev runC (c : Dev nD) (t : Fin cfg0.N) (h0 : ¬t.val % 8 = 0) (h7 : t.val % 8 = 7) (o : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t)
    scM0 (Memref.isWhole_whole _) scM1 (Memref.isWhole_whole _) scM2 (Memref.isWhole_whole _) scM3 (Memref.isWhole_whole _)
    (fun h => h0 ((hcondA t).mp h)) ((hcondC t).mpr h7) (iblk m c 0 t) (iblk m c 1 t) (iblk m c 2 t) (iblk m c 3 t) o.2.2.1 o.2.2.2.1 o.2.2.2.2.1 o.2.2.2.2.2

theorem tiledA (c : Dev nD) (t : Fin cfg0.N) (h0 : t.val % 8 = 0) (h7 : ¬t.val % 8 = 7) : Tiled4 (runA m c t h0 h7) :=
  ⟨by sl_kernel_rfl, by sl_kernel_rfl, by sl_kernel_rfl, by sl_kernel_rfl⟩

theorem tiledB (c : Dev nD) (t : Fin cfg0.N) (h0 : ¬t.val % 8 = 0) (h7 : ¬t.val % 8 = 7) (o : Outs F) : Tiled4 (runB m c t h0 h7 o) :=
  ⟨by sl_kernel_rfl, by sl_kernel_rfl, by sl_kernel_rfl, by sl_kernel_rfl⟩

theorem tiledC (c : Dev nD) (t : Fin cfg0.N) (h0 : ¬t.val % 8 = 0) (h7 : t.val % 8 = 7) (o : Outs F) : Tiled6 (runC m c t h0 h7 o) :=
  ⟨by sl_kernel_rfl, by sl_kernel_rfl, by sl_kernel_rfl, by sl_kernel_rfl, by sl_kernel_rfl, by sl_kernel_rfl⟩

/-- The outputs and the scratch columns after the body at position `n`: a row's first tile starts afresh, the others
    from what the tile before left. -/
def outsAt0 (c : Dev nD) : (n : ℕ) → n < cfg0.N → Outs F
  | 0, hn => leftScratch (runA m c ⟨0, hn⟩ (Nat.zero_mod _) (show ¬0 % 8 = 7 by decide))
  | n + 1, hn =>
    if h0 : (n + 1) % 8 = 0 then leftScratch (runA m c ⟨n + 1, hn⟩ h0 (show ¬(n + 1) % 8 = 7 by omega))
    else if h7 : (n + 1) % 8 = 7 then leftAll (runC m c ⟨n + 1, hn⟩ h0 h7 (outsAt0 c n (Nat.lt_of_succ_lt hn)))
    else leftScratch (runB m c ⟨n + 1, hn⟩ h0 h7 (outsAt0 c n (Nat.lt_of_succ_lt hn)))

/-- What the point before `t` left. -/
abbrev prevOuts (c : Dev nD) (t : Fin cfg0.N) : Outs F := outsAt0 m c (t.val - 1) (Nat.lt_of_le_of_lt (Nat.sub_le _ _) t.isLt)

theorem outsAt0_A (c : Dev nD) (t : Fin cfg0.N) (h0 : t.val % 8 = 0) (h7 : ¬t.val % 8 = 7) :
    outsAt0 m c t.val t.isLt = leftScratch (runA m c t h0 h7) := by
  obtain ⟨n, hn⟩ := t
  cases n with
  | zero => rfl
  | succ n => exact dif_pos h0

theorem outsAt0_B (c : Dev nD) (t : Fin cfg0.N) (h0 : ¬t.val % 8 = 0) (h7 : ¬t.val % 8 = 7) :
    outsAt0 m c t.val t.isLt = leftScratch (runB m c t h0 h7 (prevOuts m c t)) := by
  obtain ⟨n, hn⟩ := t
  cases n with
  | zero => exact absurd (Nat.zero_mod 8) h0
  | succ n => exact (dif_neg h0).trans (dif_neg h7)

theorem outsAt0_C (c : Dev nD) (t : Fin cfg0.N) (h0 : ¬t.val % 8 = 0) (h7 : t.val % 8 = 7) :
    outsAt0 m c t.val t.isLt = leftAll (runC m c t h0 h7 (prevOuts m c t)) := by
  obtain ⟨n, hn⟩ := t
  cases n with
  | zero => exact absurd (Nat.zero_mod 8) h0
  | succ n => exact (dif_neg h0).trans (dif_pos h7)

/-- A whole column written by a tiling list of pieces is owned at the pieces read back. -/
theorem owns_readBack (c : Dev nD) (a : Memref sig .tc .vmem S1024x1 .f32) (L : Pcs F) (hL : View.Piece.tiledL L S1024x1.size = true) :
    (iprop(∃ f, a.view.loc (c : Thread nD τ) ↦[a.view.set]{fullShare} a.view.writes (Elt F) f L) : sProp 𝕄)
      ⊢ owns (c : Thread nD τ) a fullShare (readBack L) := by
  iintro ⟨%f, H⟩
  unfold owns readBack; iexists _; isplitr
  swap; · iexact H
  ipureintro; exact View.read_writes_of_cover _ _ _ _ _ (View.cover_of_tiledL L _ hL)

/-- Before position `n` the region owns the scratch columns: at anything before the first point, afterwards at what
    the point before left. -/
def PhiS (c : Dev nD) : (n : ℕ) → n ≤ cfg0.N → sProp 𝕄
  | 0, _ => Pipeline.ΦA spec0 c
  | n + 1, hn => iprop(iprop(owns (c : Thread nD τ) scM0 fullShare (outsAt0 m c n hn).2.2.1 ∗ owns (c : Thread nD τ) scM1 fullShare (outsAt0 m c n hn).2.2.2.1 ∗ owns (c : Thread nD τ) scM2 fullShare (outsAt0 m c n hn).2.2.2.2.1 ∗ owns (c : Thread nD τ) scM3 fullShare (outsAt0 m c n hn).2.2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (outsAt0 m c n hn).2.2.1 ∗ owns (c : Thread nD τ) scM1 fullShare (outsAt0 m c n hn).2.2.2.1 ∗ owns (c : Thread nD τ) scM2 fullShare (outsAt0 m c n hn).2.2.2.2.1 ∗ owns (c : Thread nD τ) scM3 fullShare (outsAt0 m c n hn).2.2.2.2.2) ∗ (∃ r, prngReg c r)) := rfl

theorem PhiS_pos (c : Dev nD) (n : ℕ) (h : n ≤ cfg0.N) (hz : n ≠ 0) :
    PhiS m c n h = iprop(iprop(owns (c : Thread nD τ) scM0 fullShare (outsAt0 m c (n - 1) (by omega)).2.2.1 ∗ owns (c : Thread nD τ) scM1 fullShare (outsAt0 m c (n - 1) (by omega)).2.2.2.1 ∗ owns (c : Thread nD τ) scM2 fullShare (outsAt0 m c (n - 1) (by omega)).2.2.2.2.1 ∗ owns (c : Thread nD τ) scM3 fullShare (outsAt0 m c (n - 1) (by omega)).2.2.2.2.2) ∗ (∃ r, prngReg c r)) := by
  cases n with
  | zero => exact absurd rfl hz
  | succ n => rfl

/-- Whatever the scratch columns hold, they are owned at some contents. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨HS0, HS1, HS2, HS3⟩, Hg⟩
    isplitl [HS0 HS1 HS2 HS3]
    · isplitl [HS0]; · iexists _; iexact HS0
      isplitl [HS1]; · iexists _; iexact HS1
      isplitl [HS2]; · iexists _; iexact HS2
      iexists _; iexact HS3
    iexact Hg

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the point's case runs; the invariant lends it the scratch columns and takes them back at what
    the stored pieces leave, and an output is handed back as found unless the row ends here. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h7 : t.val % 8 = 7
  · have h0 : ¬t.val % 8 = 0 := by omega
    rw [show (dats m 0 c).leavesExact 4 t = owns (c : Thread nD τ) (ms0_4 t) fullShare ((dats m 0 c).after 4 t) from by
      unfold Dat.leavesExact; rw [liveAt0_4 t ((hcondC t).mpr h7)], after0_4]
    rw [show (dats m 0 c).leavesExact 5 t = owns (c : Thread nD τ) (ms0_5 t) fullShare ((dats m 0 c).after 5 t) from by
      unfold Dat.leavesExact; rw [liveAt0_5 t ((hcondC t).mpr h7)], after0_5]
    rw [outsAt0_C m c t h0 h7]
    obtain ⟨T4, T5, T0, T1, T2, T3⟩ := tiledC m c t h0 h7 (prevOuts m c t)
    unfold leftAll; (try dsimp only)
    rw [PhiS_pos m c _ _ (show t.val ≠ 0 by omega)]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((runC m c t h0 h7 (prevOuts m c t)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iapply owns_readBack c _ _ T0; iexact HS0
        isplitl [HS1]; · iapply owns_readBack c _ _ T1; iexact HS1
        isplitl [HS2]; · iapply owns_readBack c _ _ T2; iexact HS2
        iapply owns_readBack c _ _ T3; iexact HS3
      iexact Hg
    isplitl [Ho]; · iexact Ho
    isplitl [H0]; · iexact H0
    isplitl [H1]; · iexact H1
    isplitl [H2]; · iexact H2
    isplitl [H3]; · iexact H3
    isplitl [H4]; · iapply owns_readBack c _ _ T4; iexact H4
    iapply owns_readBack c _ _ T5; iexact H5
  rw [Dat.leavesExact_idle (dats m 0 c) 4 t (idleAt0_4 t (fun h => h7 ((hcondC t).mp h))) (noFlush0_4 t (fun h => h7 ((hcondC t).mp h)))]
  rw [Dat.leavesExact_idle (dats m 0 c) 5 t (idleAt0_5 t (fun h => h7 ((hcondC t).mp h))) (noFlush0_5 t (fun h => h7 ((hcondC t).mp h)))]
  by_cases h0 : t.val % 8 = 0
  case' pos =>
    rw [outsAt0_A m c t h0 h7]
    obtain ⟨T0, T1, T2, T3⟩ := tiledA m c t h0 h7
    unfold leftScratch; (try dsimp only)
    refine (sep_mono_left (PhiS_any m c _ _)).trans ?_
    rw [PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((runA m c t h0 h7).2.2.2.2 _ _ Set.univ _)
  case' neg =>
    rw [outsAt0_B m c t h0 h7]
    obtain ⟨T0, T1, T2, T3⟩ := tiledB m c t h0 h7 (prevOuts m c t)
    unfold leftScratch; (try dsimp only)
    rw [PhiS_pos m c _ _ (show t.val ≠ 0 by omega)]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((runB m c t h0 h7 (prevOuts m c t)).2.2.2.2 _ _ Set.univ _)
  all_goals
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iapply owns_readBack c _ _ T0; iexact HS0
        isplitl [HS1]; · iapply owns_readBack c _ _ T1; iexact HS1
        isplitl [HS2]; · iapply owns_readBack c _ _ T2; iexact HS2
        iapply owns_readBack c _ _ T3; iexact HS3
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := PhiS_any m c (Fin.last cfg0.N).val _

end Cert.KernelIdeal.Hand

end
-- ==== Proof.KDataPay.lean ====
import proofs.«144165_j35948876268190_1_alg».proof.Proof.KData
import Idealize.ShloMosaic.Lib.Pipeline.Value
import Mathlib.Tactic.FinCases

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

theorem hz2 : (![0, 0] : Fin 2 → Nat) = fun _ => 0 := funext fun a => by fin_cases a <;> rfl

/-- A tiling list of pieces read back is its canonical contents. -/
theorem readBack_eq_canon (L : Pcs F) (h : View.Piece.tiledL L S1024x1.size = true) : readBack L = View.canon L :=
  View.read_writes_eq_canon _ _ _ (View.cover_of_tiledL L _ h)

variable (c : Dev nD) (i : grid0.Coords)
  (arg2 : Memref sig .tc .vmem S1024x256 .bf16) (harg2 : arg2.IsWhole)
  (arg3 : Memref sig .tc .vmem S512x256 .bf16) (harg3 : arg3.IsWhole)
  (arg4 : Memref sig .tc .vmem S1024x1 .i32) (harg4 : arg4.IsWhole)
  (arg5 : Memref sig .tc .vmem S1x512 .i32) (harg5 : arg5.IsWhole)
  (arg6 : Memref sig .tc .vmem S1024x1 .f32) (harg6 : arg6.IsWhole)
  (arg7 : Memref sig .tc .vmem S1024x1 .f32) (harg7 : arg7.IsWhole)
  (arg8 : Memref sig .tc .vmem S1024x1 .f32) (harg8 : arg8.IsWhole)
  (arg9 : Memref sig .tc .vmem S1024x1 .f32) (harg9 : arg9.IsWhole)
  (arg10 : Memref sig .tc .vmem S1024x1 .f32) (harg10 : arg10.IsWhole)
  (arg11 : Memref sig .tc .vmem S1024x1 .f32) (harg11 : arg11.IsWhole)

/-- Each case leaves in every column it stores the payload of its last whole-column store: of the input blocks over the
    reset values at a row's first tile, -/
theorem payA (hcA : condA i) (hcC : ¬condC i) (x2 : Vec F S1024x256 .bf16) (x3 : Vec F S512x256 .bf16) (x4 : Vec F S1024x1 .i32) (x5 : Vec F S1x512 .i32) :
    leftScratch (kernelRun0_A c i arg2 harg2 arg3 harg3 arg4 harg4 arg5 harg5 arg6 harg6 arg7 harg7 arg8 harg8 arg9 harg9 arg10 harg10 arg11 harg11 hcA hcC x2 x3 x4 x5)
      = (idleOut, idleOut, k0_pay14 (k0_pay8 x2 x3 k0_pay1), k0_pay11 (k0_pay5 i) (k0_pay6 x2 x3) (k0_pay9 x2 x3 k0_pay1) (k0_pay10 x2 x3 k0_pay1) k0_pay2,
        k0_pay12 (k0_pay6 x2 x3) (k0_pay7 i x4 x5) k0_pay3, k0_pay13 (k0_pay7 i x4 x5) k0_pay4) := by
  unfold leftScratch
  rw [readBack_eq_canon _ (by sl_kernel_rfl), readBack_eq_canon _ (by sl_kernel_rfl), readBack_eq_canon _ (by sl_kernel_rfl), readBack_eq_canon _ (by sl_kernel_rfl)]
  unfold kernelRun0_A
  dsimp only
  sl_unfold_words
  try dsimp only
  simp only [View.canon_cons_unit_zero (S := S1024x1) hz2, View.readAt_eq_ld, harg2.read_unread, harg3.read_unread, harg4.read_unread,
    harg5.read_unread, harg8.read_unread, harg9.read_unread, harg10.read_unread, harg11.read_unread,
    View.readCov_unit_zero (S := S1024x1) _ hz2, View.ld_unit_zero (S := S1024x256) hz2, View.ld_unit_zero (S := S512x256) hz2,
    View.ld_unit_zero (S := S1024x1) hz2, View.ld_unit_zero (S := S1x512) hz2]

/-- over the contents `s0 … s3` it starts from inside a row, -/
theorem payB (hcA : ¬condA i) (hcC : ¬condC i) (x2 : Vec F S1024x256 .bf16) (x3 : Vec F S512x256 .bf16) (x4 : Vec F S1024x1 .i32) (x5 : Vec F S1x512 .i32) (s0 s1 s2 s3 : Vec F S1024x1 .f32) :
    leftScratch (kernelRun0_B c i arg2 harg2 arg3 harg3 arg4 harg4 arg5 harg5 arg6 harg6 arg7 harg7 arg8 harg8 arg9 harg9 arg10 harg10 arg11 harg11 hcA hcC x2 x3 x4 x5 s0 s1 s2 s3)
      = (idleOut, idleOut, k0_pay14 (k0_pay8 x2 x3 s0), k0_pay11 (k0_pay5 i) (k0_pay6 x2 x3) (k0_pay9 x2 x3 s0) (k0_pay10 x2 x3 s0) s1,
        k0_pay12 (k0_pay6 x2 x3) (k0_pay7 i x4 x5) s2, k0_pay13 (k0_pay7 i x4 x5) s3) := by
  unfold leftScratch
  rw [readBack_eq_canon _ (by sl_kernel_rfl), readBack_eq_canon _ (by sl_kernel_rfl), readBack_eq_canon _ (by sl_kernel_rfl), readBack_eq_canon _ (by sl_kernel_rfl)]
  unfold kernelRun0_B
  dsimp only
  sl_unfold_words
  try dsimp only
  simp only [View.canon_cons_unit_zero (S := S1024x1) hz2, View.readAt_eq_ld, harg2.read_unread, harg3.read_unread, harg4.read_unread,
    harg5.read_unread, harg8.read_unread, harg9.read_unread, harg10.read_unread, harg11.read_unread,
    View.readCov_unit_zero (S := S1024x1) _ hz2, View.ld_unit_zero (S := S1024x256) hz2, View.ld_unit_zero (S := S512x256) hz2,
    View.ld_unit_zero (S := S1024x1) hz2, View.ld_unit_zero (S := S1x512) hz2]

/-- and at a row's last tile also the closing payloads of the new scratch contents in the two outputs. -/
theorem payC (hcA : ¬condA i) (hcC : condC i) (x2 : Vec F S1024x256 .bf16) (x3 : Vec F S512x256 .bf16) (x4 : Vec F S1024x1 .i32) (x5 : Vec F S1x512 .i32) (s0 s1 s2 s3 : Vec F S1024x1 .f32) :
    leftAll (kernelRun0_C c i arg2 harg2 arg3 harg3 arg4 harg4 arg5 harg5 arg6 harg6 arg7 harg7 arg8 harg8 arg9 harg9 arg10 harg10 arg11 harg11 hcA hcC x2 x3 x4 x5 s0 s1 s2 s3)
      = (k0_pay16 (k0_pay13 (k0_pay7 i x4 x5) s3) (k0_pay11 (k0_pay5 i) (k0_pay6 x2 x3) (k0_pay9 x2 x3 s0) (k0_pay10 x2 x3 s0) s1) (k0_pay12 (k0_pay6 x2 x3) (k0_pay7 i x4 x5) s2) (k0_pay14 (k0_pay8 x2 x3 s0)),
        k0_pay15 (k0_pay13 (k0_pay7 i x4 x5) s3), k0_pay14 (k0_pay8 x2 x3 s0), k0_pay11 (k0_pay5 i) (k0_pay6 x2 x3) (k0_pay9 x2 x3 s0) (k0_pay10 x2 x3 s0) s1,
        k0_pay12 (k0_pay6 x2 x3) (k0_pay7 i x4 x5) s2, k0_pay13 (k0_pay7 i x4 x5) s3) := by
  unfold leftAll
  simp only [Prod.mk.injEq]
  refine ⟨?_, ?_, ?_, ?_, ?_, ?_⟩
  all_goals
    refine (readBack_eq_canon _ (by sl_kernel_rfl)).trans ?_
    unfold kernelRun0_C
    dsimp only
    sl_unfold_words
    try dsimp only
    simp only [View.canon_cons_unit_zero (S := S1024x1) hz2, View.readAt_eq_ld, harg2.read_unread, harg3.read_unread, harg4.read_unread,
      harg5.read_unread, harg8.read_unread, harg9.read_unread, harg10.read_unread, harg11.read_unread,
      View.readCov_unit_zero (S := S1024x1) _ hz2, View.ld_unit_zero (S := S1024x256) hz2, View.ld_unit_zero (S := S512x256) hz2,
      View.ld_unit_zero (S := S1024x1) hz2, View.ld_unit_zero (S := S1x512) hz2]

end Cert.KernelIdeal.Hand

end
-- ==== Proof.Spec.lean ====
import Idealize.ShloMosaic.PureOps.Ideal

noncomputable section

namespace Cert.Spec

open Idealize.ShloMosaic

/-- The reciprocal of the reference's temperature word, and its epsilon. -/
def kappa : EReal := ((134217728 / 9395241 : ℝ) : EReal)

def eps : EReal := Ideal.ofBits .f32 0x322BCC77#32

variable (E : Fin 4096 → Fin 256 → EReal) (lab : Fin 4096 → BitVec 32)

/-- The specification, row by row: similarities, the diagonal, the label mask, and per row the maximum, the sum of
    shifted exponentials off the diagonal, the count of positives, the masked sum of log-probabilities, the loss. -/
def sim (r c : Fin 4096) : EReal := (∑ k : Fin 256, E r k * E c k) * kappa
def eye (r c : Fin 4096) : EReal := if r = c then 1 else 0
def leq (r c : Fin 4096) : EReal := if lab r = lab c then 1 else 0
def mask (r c : Fin 4096) : EReal := leq lab r c - eye r c
def rowMax (r : Fin 4096) : EReal := (Finset.univ : Finset (Fin 4096)).fold max ⊥ (fun c => sim E r c)
def rowS (r : Fin 4096) : EReal := ∑ c : Fin 4096, Ideal.exp (sim E r c - rowMax E r) * (1 - eye r c)
def rowN (r : Fin 4096) : EReal := ∑ c : Fin 4096, mask lab r c
def rowQ (r : Fin 4096) : EReal :=
  ∑ c : Fin 4096, mask lab r c * ((sim E r c - rowMax E r) - Ideal.log (rowS E r + eps))
def rowLoss (r : Fin 4096) : EReal := if 0 < rowN lab r then -(Ideal.div (rowQ E lab r) (rowN lab r + eps)) else 0
def rowValid (r : Fin 4096) : EReal := if 0 < rowN lab r then 1 else 0
def loss : EReal :=
  Ideal.div (∑ r : Fin 4096, rowLoss E lab r) (max (∑ r : Fin 4096, rowValid lab r) 1) * 1

/-- Words both programs spell, and a row index as a word. -/
theorem ofBits_one : Ideal.ofBits .f32 0x3F800000#32 = 1 := by
  simp [Ideal.ofBits, Ideal.ieee, -EReal.coe_mul]; norm_num

theorem ofBits_neg_inf : Ideal.ofBits .f32 0xFF800000#32 = ⊥ := by simp [Ideal.ofBits, Ideal.ieee]

theorem ofNat_eq_iff (r c : Fin 4096) : BitVec.ofNat 32 r.val = BitVec.ofNat 32 c.val ↔ r = c := by
  refine ⟨fun h => ?_, fun h => by rw [h]⟩
  have h' := congrArg BitVec.toNat h
  simp only [BitVec.toNat_ofNat] at h'
  have hr := r.isLt
  have hc := c.isLt
  exact Fin.ext (by omega)

theorem select_ogt_zero {α : Type} (n : EReal) (a b : α) : Scalar.select (Ideal.cmp .ogt n 0) a b = if 0 < n then a else b := by
  unfold Scalar.select Ideal.cmp
  by_cases h : 0 < n <;> simp [h]

end Cert.Spec

end
-- ==== Proof.Online.lean ====
import proofs.«144165_j35948876268190_1_alg».proof.Proof.Spec
import Mathlib.Data.Fintype.BigOperators
import Mathlib.Data.Finset.Lattice.Prod
import Mathlib.Data.Fintype.Lattice

noncomputable section

namespace Cert.Online

open Idealize.ShloMosaic Cert.Spec

def col (j : Fin 8) (q : Fin 512) : Fin 4096 := ⟨j.val * 512 + q.val, by omega⟩

/-- A row's running accumulators: maximum, rescaled sum of exponentials, masked sum, count. -/
structure Acc where
  m : EReal
  s : EReal
  p : EReal
  n : EReal

def Acc.init : Acc := ⟨⊥, 0, 0, 0⟩

def Acc.step (a e k : Fin 512 → EReal) (A : Acc) : Acc :=
  { m := max A.m ((Finset.univ : Finset (Fin 512)).fold max ⊥ a)
    s := A.s * Ideal.exp (A.m - max A.m ((Finset.univ : Finset (Fin 512)).fold max ⊥ a))
          + ∑ q : Fin 512, Ideal.exp (a q - max A.m ((Finset.univ : Finset (Fin 512)).fold max ⊥ a)) * (1 - e q)
    p := A.p + ∑ q : Fin 512, k q * a q
    n := A.n + ∑ q : Fin 512, k q }

def accAt (a e k : Fin 8 → Fin 512 → EReal) : ℕ → Acc
  | 0 => Acc.init
  | j + 1 => if h : j < 8 then Acc.step (a ⟨j, h⟩) (e ⟨j, h⟩) (k ⟨j, h⟩) (accAt a e k j) else accAt a e k j

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

theorem fold_max_real {ι : Type} (s : Finset ι) (hs : s.Nonempty) (f : ι → ℝ) :
    ∃ T : ℝ, s.fold max ⊥ (fun i => (f i : EReal)) = (T : EReal) := by
  induction hs using Finset.Nonempty.cons_induction with
  | singleton a => exact ⟨f a, by simp⟩
  | cons a s ha hs ih =>
    obtain ⟨T, hT⟩ := ih
    exact ⟨max (f a) T, by rw [Finset.fold_cons, hT, coe_max]⟩

def colEquiv : Fin 8 × Fin 512 ≃ Fin 4096 where
  toFun p := col p.1 p.2
  invFun c := (⟨c.val / 512, by omega⟩, ⟨c.val % 512, by omega⟩)
  left_inv := by
    rintro ⟨i, q⟩
    simp only [col, Prod.mk.injEq, Fin.ext_iff]
    constructor <;> omega
  right_inv := by
    intro c
    simp only [col, Fin.ext_iff]
    omega

theorem sum_col (g : Fin 4096 → ℝ) : ∑ i : Fin 8, ∑ q : Fin 512, g (col i q) = ∑ c, g c :=
  (Fintype.sum_prod_type (fun p : Fin 8 × Fin 512 => g (col p.1 p.2))).symm.trans (Equiv.sum_comp colEquiv g)

theorem fold_col (g : Fin 4096 → EReal) :
    (Finset.univ : Finset (Fin 8)).fold max ⊥ (fun i => (Finset.univ : Finset (Fin 512)).fold max ⊥ (fun q => g (col i q)))
      = (Finset.univ : Finset (Fin 4096)).fold max ⊥ g := by
  have h : (Finset.univ : Finset (Fin 4096)) = (Finset.univ : Finset (Fin 8 × Fin 512)).map colEquiv.toEmbedding :=
    (Finset.map_univ_equiv colEquiv).symm
  change (Finset.univ : Finset (Fin 8)).sup (fun i => (Finset.univ : Finset (Fin 512)).sup (fun q => g (col i q)))
      = (Finset.univ : Finset (Fin 4096)).sup g
  rw [h, Finset.sup_map, ← Finset.univ_product_univ, Finset.sup_product_left]
  rfl

theorem exp_sub_coe (x y : ℝ) : Ideal.exp ((x : EReal) - (y : EReal)) = ((Real.exp (x - y) : ℝ) : EReal) := by
  rw [← EReal.coe_sub, Ideal.exp_coe]

theorem step_init (ar er kr : Fin 512 → ℝ) :
    ∃ M' : ℝ, (Finset.univ : Finset (Fin 512)).fold max ⊥ (fun q => (ar q : EReal)) = (M' : EReal) ∧
      Acc.step (fun q => (ar q : EReal)) (fun q => (er q : EReal)) (fun q => (kr q : EReal)) Acc.init
        = ⟨(M' : EReal), ((∑ q, Real.exp (ar q - M') * (1 - er q) : ℝ) : EReal),
            ((∑ q, kr q * ar q : ℝ) : EReal), ((∑ q, kr q : ℝ) : EReal)⟩ := by
  obtain ⟨T, hT⟩ := fold_max_real (Finset.univ : Finset (Fin 512)) Finset.univ_nonempty ar
  refine ⟨T, hT, ?_⟩
  simp only [Acc.step, Acc.init, hT, Acc.mk.injEq, bot_sup_eq, zero_mul, zero_add]
  refine ⟨trivial, ?_, ?_, ?_⟩
  · simp only [coe_sum, EReal.coe_mul, EReal.coe_sub, EReal.coe_one, exp_sub_coe]
  · simp only [coe_sum, EReal.coe_mul]
  · simp only [coe_sum]

theorem step_real (ar er kr : Fin 512 → ℝ) (M S P N : ℝ) :
    ∃ M' : ℝ, max (M : EReal) ((Finset.univ : Finset (Fin 512)).fold max ⊥ (fun q => (ar q : EReal))) = (M' : EReal) ∧
      Acc.step (fun q => (ar q : EReal)) (fun q => (er q : EReal)) (fun q => (kr q : EReal)) ⟨M, S, P, N⟩
        = ⟨(M' : EReal), ((S * Real.exp (M - M') + ∑ q, Real.exp (ar q - M') * (1 - er q) : ℝ) : EReal),
            ((P + ∑ q, kr q * ar q : ℝ) : EReal), ((N + ∑ q, kr q : ℝ) : EReal)⟩ := by
  obtain ⟨T, hT⟩ := fold_max_real (Finset.univ : Finset (Fin 512)) Finset.univ_nonempty ar
  have hM : max (M : EReal) (T : EReal) = ((max M T : ℝ) : EReal) := (coe_max M T).symm
  refine ⟨max M T, by rw [hT, hM], ?_⟩
  simp only [Acc.step, hT, hM, Acc.mk.injEq]
  refine ⟨trivial, ?_, ?_, ?_⟩
  · simp only [EReal.coe_add, coe_sum, EReal.coe_mul, EReal.coe_sub, EReal.coe_one, exp_sub_coe]
  · simp only [EReal.coe_add, coe_sum, EReal.coe_mul]
  · simp only [EReal.coe_add, coe_sum]

def before (j : ℕ) : Finset (Fin 8) := Finset.univ.filter (fun i => i.val < j)

theorem before_zero : before 0 = ∅ := by ext i; simp [before]

theorem before_succ {j : ℕ} (h : j < 8) : before (j + 1) = insert (⟨j, h⟩ : Fin 8) (before j) := by
  ext i; simp only [before, Finset.mem_filter, Finset.mem_univ, true_and, Finset.mem_insert, Fin.ext_iff]; omega

theorem not_mem_before {j : ℕ} (h : j < 8) : (⟨j, h⟩ : Fin 8) ∉ before j := by simp [before]

theorem before_eight : before 8 = Finset.univ := by
  ext i; simp only [before, Finset.mem_filter, Finset.mem_univ, true_and, iff_true]; exact i.isLt

/-- Over reals the rescaled sum after `j` tiles is the sum over those tiles at their maximum: exp (x − M) · exp (M − M') = exp (x − M'). -/
theorem accAt_inv (ar er kr : Fin 8 → Fin 512 → ℝ) (j : ℕ) (h1 : 1 ≤ j) (h8 : j ≤ 8) :
    ∃ M : ℝ,
      (before j).fold max ⊥ (fun i => (Finset.univ : Finset (Fin 512)).fold max ⊥ (fun q => (ar i q : EReal))) = (M : EReal) ∧
      accAt (fun i q => (ar i q : EReal)) (fun i q => (er i q : EReal)) (fun i q => (kr i q : EReal)) j
        = ⟨(M : EReal), ((∑ i ∈ before j, ∑ q, Real.exp (ar i q - M) * (1 - er i q) : ℝ) : EReal),
            ((∑ i ∈ before j, ∑ q, kr i q * ar i q : ℝ) : EReal), ((∑ i ∈ before j, ∑ q, kr i q : ℝ) : EReal)⟩ := by
  induction j, h1 using Nat.le_induction with
  | base =>
    obtain ⟨M', h1, h2⟩ := step_init (ar ⟨0, by omega⟩) (er ⟨0, by omega⟩) (kr ⟨0, by omega⟩)
    refine ⟨M', ?_, ?_⟩
    · rw [before_succ (by omega : 0 < 8), before_zero]
      simpa using h1
    · rw [before_succ (by omega : 0 < 8), before_zero]
      simpa [accAt] using h2
  | succ j hj ih =>
    have h : j < 8 := by omega
    obtain ⟨M, hM, hA⟩ := ih (by omega)
    obtain ⟨M', h1, h2⟩ := step_real (ar ⟨j, h⟩) (er ⟨j, h⟩) (kr ⟨j, h⟩) M
      (∑ i ∈ before j, ∑ q, Real.exp (ar i q - M) * (1 - er i q)) (∑ i ∈ before j, ∑ q, kr i q * ar i q)
      (∑ i ∈ before j, ∑ q, kr i q)
    refine ⟨M', ?_, ?_⟩
    · rw [before_succ h, Finset.fold_insert (not_mem_before h), hM, max_comm]
      exact h1
    · have hstep : accAt (fun i q => (ar i q : EReal)) (fun i q => (er i q : EReal)) (fun i q => (kr i q : EReal)) (j + 1)
          = Acc.step (fun q => (ar ⟨j, h⟩ q : EReal)) (fun q => (er ⟨j, h⟩ q : EReal)) (fun q => (kr ⟨j, h⟩ q : EReal))
              (accAt (fun i q => (ar i q : EReal)) (fun i q => (er i q : EReal)) (fun i q => (kr i q : EReal)) j) := by
        simp only [accAt, dif_pos h]
      rw [hstep, hA, h2, before_succ h, Finset.sum_insert (not_mem_before h), Finset.sum_insert (not_mem_before h),
        Finset.sum_insert (not_mem_before h)]
      have hs : (∑ i ∈ before j, ∑ q, Real.exp (ar i q - M) * (1 - er i q)) * Real.exp (M - M')
          = ∑ i ∈ before j, ∑ q, Real.exp (ar i q - M') * (1 - er i q) := by
        rw [Finset.sum_mul]
        refine Finset.sum_congr rfl (fun i _ => ?_)
        rw [Finset.sum_mul]
        refine Finset.sum_congr rfl (fun q _ => ?_)
        rw [mul_right_comm, ← Real.exp_add]
        congr 2; ring
      rw [hs, add_comm (∑ i ∈ before j, ∑ q, Real.exp (ar i q - M') * (1 - er i q)),
        add_comm (∑ i ∈ before j, ∑ q, kr i q * ar i q), add_comm (∑ i ∈ before j, ∑ q, kr i q)]

variable (E : Fin 4096 → Fin 256 → EReal) (lab : Fin 4096 → BitVec 32)

def rowAcc (r : Fin 4096) (j : ℕ) : Acc :=
  accAt (fun j q => sim E r (col j q)) (fun j q => eye r (col j q)) (fun j q => mask lab r (col j q)) j

theorem sim_real (hE : ∀ r k, ∃ x : ℝ, E r k = (x : EReal)) (r c : Fin 4096) : ∃ x : ℝ, sim E r c = (x : EReal) := by
  choose f hf using hE
  refine ⟨(∑ k : Fin 256, f r k * f c k) * (134217728 / 9395241 : ℝ), ?_⟩
  simp only [sim, kappa, hf, EReal.coe_mul, coe_sum]

def eyeR (r c : Fin 4096) : ℝ := if r = c then 1 else 0

def maskR (r c : Fin 4096) : ℝ := (if lab r = lab c then 1 else 0) - eyeR r c

theorem eye_real (r c : Fin 4096) : eye r c = (eyeR r c : EReal) := by
  unfold eye eyeR; split <;> simp

theorem mask_real (r c : Fin 4096) : mask lab r c = (maskR lab r c : EReal) := by
  unfold mask maskR leq
  rw [eye_real, EReal.coe_sub]
  split <;> simp

theorem eyeR_le_one (r c : Fin 4096) : 0 ≤ 1 - eyeR r c := by
  unfold eyeR; split <;> simp

theorem row_real (hE : ∀ r k, ∃ x : ℝ, E r k = (x : EReal)) (r : Fin 4096) :
    ∃ (sr : Fin 4096 → ℝ) (M : ℝ), (∀ c, sim E r c = (sr c : EReal)) ∧ rowMax E r = (M : EReal) ∧
      rowAcc E lab r 8 = ⟨(M : EReal), ((∑ c, Real.exp (sr c - M) * (1 - eyeR r c) : ℝ) : EReal),
        ((∑ c, maskR lab r c * sr c : ℝ) : EReal), ((∑ c, maskR lab r c : ℝ) : EReal)⟩ := by
  choose sr hsr using sim_real E hE r
  obtain ⟨M, hM, hA⟩ := accAt_inv (fun i q => sr (col i q)) (fun i q => eyeR r (col i q))
    (fun i q => maskR lab r (col i q)) 8 (by omega) (le_refl 8)
  refine ⟨sr, M, hsr, ?_, ?_⟩
  · rw [before_eight, fold_col (fun c => (sr c : EReal))] at hM
    have hf : (fun c => sim E r c) = fun c => (sr c : EReal) := funext hsr
    rw [← hM, rowMax, hf]
  · simp only [before_eight] at hA
    rw [sum_col (fun c => Real.exp (sr c - M) * (1 - eyeR r c)), sum_col (fun c => maskR lab r c * sr c),
      sum_col (fun c => maskR lab r c)] at hA
    have h1 : (fun (j : Fin 8) (q : Fin 512) => sim E r (col j q)) = fun j q => (sr (col j q) : EReal) := by
      funext j q; exact hsr _
    have h2 : (fun (j : Fin 8) (q : Fin 512) => eye r (col j q)) = fun j q => (eyeR r (col j q) : EReal) := by
      funext j q; exact eye_real _ _
    have h3 : (fun (j : Fin 8) (q : Fin 512) => mask lab r (col j q)) = fun j q => (maskR lab r (col j q) : EReal) := by
      funext j q; exact mask_real lab _ _
    rw [← hA, rowAcc, h1, h2, h3]

theorem rowS_real (r : Fin 4096) (sr : Fin 4096 → ℝ) (M : ℝ) (hs : ∀ c, sim E r c = (sr c : EReal))
    (hM : rowMax E r = (M : EReal)) :
    rowS E r = ((∑ c, Real.exp (sr c - M) * (1 - eyeR r c) : ℝ) : EReal) := by
  simp only [rowS, hs, hM, eye_real, coe_sum, EReal.coe_mul, EReal.coe_sub, EReal.coe_one, exp_sub_coe]

theorem rowN_real (r : Fin 4096) : rowN lab r = ((∑ c, maskR lab r c : ℝ) : EReal) := by
  simp only [rowN, mask_real, coe_sum]

/-- After all eight tiles the accumulators are the whole row's quantities. -/
theorem rowAcc_final (hE : ∀ r k, ∃ x : ℝ, E r k = (x : EReal)) (r : Fin 4096) :
    (rowAcc E lab r 8).m = rowMax E r ∧ (rowAcc E lab r 8).s = rowS E r
      ∧ (rowAcc E lab r 8).p = ∑ c : Fin 4096, mask lab r c * sim E r c ∧ (rowAcc E lab r 8).n = rowN lab r := by
  obtain ⟨sr, M, hs, hM, hA⟩ := row_real E lab hE r
  rw [hA]
  refine ⟨hM.symm, (rowS_real E r sr M hs hM).symm, ?_, (rowN_real lab r).symm⟩
  simp only [hs, mask_real, coe_sum, EReal.coe_mul]

theorem eps_pos : ∃ e : ℝ, 0 < e ∧ eps = (e : EReal) := by
  refine ⟨11258999 * (2 ^ 50)⁻¹, by positivity, ?_⟩
  simp [eps, Ideal.ofBits, Ideal.ieee]

/-- A finite factor distributes over the row's finite sum: the closing numerator is the masked sum of log-probabilities. -/
theorem numer_eq (hE : ∀ r k, ∃ x : ℝ, E r k = (x : EReal)) (r : Fin 4096) :
    (∑ c : Fin 4096, mask lab r c * sim E r c) - rowMax E r * rowN lab r - Ideal.log (rowS E r + eps) * rowN lab r
      = rowQ E lab r := by
  obtain ⟨sr, M, hs, hM, -⟩ := row_real E lab hE r
  obtain ⟨e, he, heps⟩ := eps_pos
  have hS := rowS_real E r sr M hs hM
  have hN := rowN_real lab r
  have hSnn : 0 ≤ ∑ c, Real.exp (sr c - M) * (1 - eyeR r c) :=
    Finset.sum_nonneg (fun c _ => mul_nonneg (Real.exp_pos _).le (eyeR_le_one r c))
  have hlog : Ideal.log (rowS E r + eps)
      = ((Real.log ((∑ c, Real.exp (sr c - M) * (1 - eyeR r c)) + e) : ℝ) : EReal) := by
    rw [hS, heps, ← EReal.coe_add, Ideal.log_coe, if_neg (by linarith)]
  rw [rowQ, hlog, hN, hM]
  simp only [hs, mask_real, ← EReal.coe_mul, ← EReal.coe_sub, ← coe_sum]
  rw [EReal.coe_eq_coe_iff]
  simp only [mul_sub, Finset.sum_sub_distrib, ← Finset.sum_mul]
  ring

theorem finish_row (hE : ∀ r k, ∃ x : ℝ, E r k = (x : EReal)) (r : Fin 4096) :
    (if 0 < (rowAcc E lab r 8).n then
        0 - Ideal.div ((rowAcc E lab r 8).p - (rowAcc E lab r 8).m * (rowAcc E lab r 8).n
              - Ideal.log ((rowAcc E lab r 8).s + eps) * (rowAcc E lab r 8).n) ((rowAcc E lab r 8).n + eps)
      else 0) = rowLoss E lab r := by
  obtain ⟨h1, h2, h3, h4⟩ := rowAcc_final E lab hE r
  rw [h1, h2, h3, h4, numer_eq E lab hE r, zero_sub, rowLoss]

theorem finish_valid (hE : ∀ r k, ∃ x : ℝ, E r k = (x : EReal)) (r : Fin 4096) :
    (if 0 < (rowAcc E lab r 8).n then (1 : EReal) else 0) = rowValid lab r := by
  rw [(rowAcc_final E lab hE r).2.2.2, rowValid]

end Cert.Online

end
-- ==== Proof.KValStep.lean ====
import proofs.«144165_j35948876268190_1_alg».proof.Proof.Gen.KernelIdeal.Skeleton
import proofs.«144165_j35948876268190_1_alg».proof.Proof.Online
import proofs.«144165_j35948876268190_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx Cert.Spec Cert.Online

/-- Row `p` of row tile `a`. -/
def rowOf (a : Fin 4) (p : Fin 1024) : Fin 4096 := ⟨a.val * 1024 + p.val, by omega⟩

theorem inv_temp_eq : Named.named (F := Ideal) Cert.KernelIdeal.κ "inv_temp" (φ := .f32) 0x41649249#32 = kappa := rfl

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem lift_row (p : Fin 1024) (q : Fin 512) :
    Shape.Reduces.lift reduces_S1024x512_S1024 (ix1 p) q = ix2 p q :=
  funext fun c => Fin.ext (by match c with | ⟨0, _⟩ => rfl | ⟨1, _⟩ => rfl)

theorem lhs_dot_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_dot_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
theorem rhs_dot_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_dot_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- A tile of the similarity product is the plain sum over the 256 features. -/
theorem matmul_tile_apply (y0 : FVec Ideal S1024x256 .bf16) (y1 : FVec Ideal S512x256 .bf16) (p : Fin 1024) (q : Fin 512) :
    matmul (F := Ideal) dot_S1024x256_S512x256_S1024x512_1_1_0_0_n_n none y0 y1 (constant (F := Ideal) S1024x512 .f32 0x00000000#32) (ix2 p q)
      = ∑ k : Fin 256, y0 (ix2 p k) * y1 (ix2 q k) := by
  simp only [matmul]
  rw [Ideal.matmul_constant_zero_apply, ← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 p q) ((contrEquiv1 dot_S1024x256_S512x256_S1024x512_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S512x256_S1024x512_1_1_0_0_n_n.rhsIdx (ix2 p q) ((contrEquiv1 dot_S1024x256_S512x256_S1024x512_1_1_0_0_n_n 256 rfl rfl).symm k) = ix2 q k := funext fun a => Fin.ext (by
    match a with
    | ⟨0, _⟩ => exact rhs_dot_0 _ _
    | ⟨1, _⟩ => exact (rhs_dot_1 _ _).trans hk)
  rw [el, er]

variable (E : Fin 4096 → Fin 256 → EReal) (lab : Fin 4096 → BitVec 32)

/-- The tile's payloads at a lane: similarities, the diagonal, the label mask. -/
theorem pay6_apply (a : Fin 4) (j : Fin 8) (x2 : Vec Ideal S1024x256 .bf16) (x3 : Vec Ideal S512x256 .bf16)
    (hx2 : ∀ (p : Fin 1024) (k : Fin 256), x2 (ix2 p k) = E (rowOf a p) k)
    (hx3 : ∀ (q : Fin 512) (k : Fin 256), x3 (ix2 q k) = E (col j q) k) (p : Fin 1024) (q : Fin 512) :
    k0_pay6 (F := Ideal) x2 x3 (ix2 p q) = sim E (rowOf a p) (col j q) := by
  unfold k0_pay6
  rw [shapeCast_self, shapeCast_self]
  refine (mulf_apply _ _ _).trans ?_
  rw [matmul_tile_apply, broadcast_apply, inv_temp_eq]
  unfold sim
  exact congrArg (· * kappa) (Finset.sum_congr rfl fun k _ => by rw [hx2, hx3])

theorem sitofp_bit_one : FloatOps.sitofp (F := Ideal) .f32 ((1#1 : BitVec 1).setWidth 32) = 1 := by
  show ((((BitVec.setWidth 32 1#1 : BitVec 32)).toInt : ℝ) : EReal) = 1
  have e' : (BitVec.setWidth 32 1#1 : BitVec 32).toInt = 1 := by decide
  rw [e']; simp

theorem sitofp_bit_zero : FloatOps.sitofp (F := Ideal) .f32 ((0#1 : BitVec 1).setWidth 32) = 0 := by
  show ((((BitVec.setWidth 32 0#1 : BitVec 32)).toInt : ℝ) : EReal) = 0
  have e' : (BitVec.setWidth 32 0#1 : BitVec 32).toInt = 0 := by decide
  rw [e']; simp

theorem sitofp_cmpi_eq (x y : BitVec 32) :
    FloatOps.sitofp (F := Ideal) .f32 ((IntOp.cmpi .eq x y).setWidth 32) = if x = y then (1 : EReal) else 0 := by
  by_cases h : x = y
  · subst h
    rw [if_pos rfl]
    have e : IntOp.cmpi .eq x x = 1#1 := by simp [IntOp.cmpi]
    rw [e, sitofp_bit_one]
  · rw [if_neg h]
    have hb : (x == y) = false := beq_false_of_ne h
    have e : IntOp.cmpi .eq x y = 0#1 := by
      show BitVec.ofBool (x == y) = 0#1
      rw [hb]; rfl
    rw [e, sitofp_bit_zero]

theorem eqInd_apply (u : IVec S1024x1 32) (v : IVec S1x512 32) (p : Fin 1024) (q : Fin 512) :
    (sitofp (F := Ideal) .f32 (extui 32 (cmpi .eq (broadcastTo S1024x512 u broadcasts_S1024x1_S1024x512)
        (broadcastTo S1024x512 v broadcasts_S1x512_S1024x512)) natLt_1_32) : FVec Ideal S1024x512 .f32) (ix2 p q)
      = if u (ix2 p 0) = v (ix2 0 q) then (1 : EReal) else 0 := by
  show FloatOps.sitofp (F := Ideal) .f32 ((IntOp.cmpi .eq (broadcastTo S1024x512 u broadcasts_S1024x1_S1024x512 (ix2 p q))
    (broadcastTo S1024x512 v broadcasts_S1x512_S1024x512 (ix2 p q))).setWidth 32) = _
  rw [broadcastTo_a1_ab_apply, broadcastTo_1b_ab_apply]
  exact sitofp_cmpi_eq _ _

theorem rowWord_apply (w : BitVec 32) (p : Fin 1024) :
    addi (broadcast S1024x1 w) (iota .tc S1024x1 32 [0] iota_S1024x1_d0_w32) (ix2 p 0) = w + BitVec.ofNat 32 p.val := by
  show IntOp.addi w (iota .tc S1024x1 32 [0] iota_S1024x1_d0_w32 (ix2 p 0)) = _
  rw [iota_single_apply]; rfl

theorem colWord_apply (w : BitVec 32) (q : Fin 512) :
    addi (broadcast S1x512 w) (iota .tc S1x512 32 [1] iota_S1x512_d1_w32) (ix2 0 q) = w + BitVec.ofNat 32 q.val := by
  show IntOp.addi w (iota .tc S1x512 32 [1] iota_S1x512_d1_w32 (ix2 0 q)) = _
  rw [iota_single_apply]; rfl

theorem rowWord_eq (i0 : Nat) (a : Fin 4) (h : i0 = a.val) (p : Fin 1024) :
    Scalar.muli (BitVec.ofNat 32 i0) 1024#32 + BitVec.ofNat 32 p.val = BitVec.ofNat 32 (rowOf a p).val := by
  subst h
  show BitVec.ofNat 32 a.val * BitVec.ofNat 32 1024 + BitVec.ofNat 32 p.val = BitVec.ofNat 32 (a.val * 1024 + p.val)
  rw [← BitVec.ofNat_mul, ← BitVec.ofNat_add]

theorem colWord_eq (i1 : Nat) (j : Fin 8) (h : i1 = j.val) (q : Fin 512) :
    Scalar.muli (BitVec.ofNat 32 i1) 512#32 + BitVec.ofNat 32 q.val = BitVec.ofNat 32 (col j q).val := by
  subst h
  show BitVec.ofNat 32 j.val * BitVec.ofNat 32 512 + BitVec.ofNat 32 q.val = BitVec.ofNat 32 (j.val * 512 + q.val)
  rw [← BitVec.ofNat_mul, ← BitVec.ofNat_add]

theorem pay5_apply (i : grid0.Coords) (a : Fin 4) (j : Fin 8) (ha : (i 0).val = a.val) (hj : (i 1).val = j.val)
    (p : Fin 1024) (q : Fin 512) : k0_pay5 (F := Ideal) i (ix2 p q) = eye (rowOf a p) (col j q) := by
  unfold k0_pay5
  refine (eqInd_apply _ _ p q).trans ?_
  rw [rowWord_apply, colWord_apply, rowWord_eq _ a ha, colWord_eq _ j hj]
  exact if_congr (ofNat_eq_iff _ _) rfl rfl

theorem pay7_apply (i : grid0.Coords) (a : Fin 4) (j : Fin 8) (ha : (i 0).val = a.val) (hj : (i 1).val = j.val)
    (x4 : Vec Ideal S1024x1 .i32) (x5 : Vec Ideal S1x512 .i32)
    (hx4 : ∀ p : Fin 1024, x4 (ix2 p 0) = lab (rowOf a p))
    (hx5 : ∀ q : Fin 512, x5 (ix2 0 q) = lab (col j q)) (p : Fin 1024) (q : Fin 512) :
    k0_pay7 (F := Ideal) i x4 x5 (ix2 p q) = mask lab (rowOf a p) (col j q) := by
  unfold k0_pay7
  rw [shapeCast_self, shapeCast_self]
  refine (subf_apply _ _ _).trans ?_
  rw [eqInd_apply, pay5_apply i a j ha hj, hx4, hx5]
  rfl

theorem rowMax_apply (t : FVec Ideal S1024x512 .f32) (p : Fin 1024) :
    shapeCast S1024x1 (multiReduction (F := Ideal) .maximumf [1] S1024 t 0xFF800000#32 reduces_S1024x512_S1024 (.inl rfl) rfl)
        shapeCasts_S1024_S1024x1 (ix2 p 0)
      = (Finset.univ : Finset (Fin 512)).fold max ⊥ (fun q => t (ix2 p q)) := by
  refine (shapeCast_a_a1_apply _ _ p 0).trans ?_
  refine (Ideal.multiReduction_maximumf_single t 0xFF800000#32 reduces_S1024x512_S1024 (.inl rfl) rfl (ix1 p)).trans ?_
  show (Finset.univ : Finset (Fin 512)).fold max (Ideal.ofBits .f32 0xFF800000#32) (t ∘ Shape.Reduces.lift reduces_S1024x512_S1024 (ix1 p)) = _
  rw [ofBits_neg_inf]
  exact congrArg (fun f => (Finset.univ : Finset (Fin 512)).fold max ⊥ f) (funext fun q => congrArg t (lift_row p q))

theorem rowSum_apply (t : FVec Ideal S1024x512 .f32) (p : Fin 1024) :
    shapeCast S1024x1 (multiReduction (F := Ideal) .add [1] S1024 t 0x00000000#32 reduces_S1024x512_S1024 (.inl rfl) rfl)
        shapeCasts_S1024_S1024x1 (ix2 p 0)
      = ∑ q : Fin 512, t (ix2 p q) := by
  refine (shapeCast_a_a1_apply _ _ p 0).trans ?_
  refine (Ideal.multiReduction_add_single t 0x00000000#32 reduces_S1024x512_S1024 (.inl rfl) rfl (ix1 p)).trans ?_
  show ∑ q : Fin 512, t (Shape.Reduces.lift reduces_S1024x512_S1024 (ix1 p) q) = _
  exact Finset.sum_congr rfl fun q _ => congrArg t (lift_row p q)

theorem pay8_row (x2 : Vec Ideal S1024x256 .bf16) (x3 : Vec Ideal S512x256 .bf16) (s0 : Vec Ideal S1024x1 .f32) (p : Fin 1024) :
    k0_pay8 (F := Ideal) x2 x3 s0 (ix2 p 0)
      = max (s0 (ix2 p 0)) ((Finset.univ : Finset (Fin 512)).fold max ⊥ (fun q => k0_pay6 (F := Ideal) x2 x3 (ix2 p q))) := by
  unfold k0_pay8
  refine (maximumf_apply _ _ _).trans ?_
  rw [rowMax_apply]

theorem pay9_row (x2 : Vec Ideal S1024x256 .bf16) (x3 : Vec Ideal S512x256 .bf16) (s0 : Vec Ideal S1024x1 .f32) (p : Fin 1024) :
    k0_pay9 (F := Ideal) x2 x3 s0 (ix2 p 0) = Ideal.exp (s0 (ix2 p 0) - k0_pay8 (F := Ideal) x2 x3 s0 (ix2 p 0)) := by
  unfold k0_pay9
  rfl

theorem pay10_row (x2 : Vec Ideal S1024x256 .bf16) (x3 : Vec Ideal S512x256 .bf16) (s0 : Vec Ideal S1024x1 .f32) (p : Fin 1024) (q : Fin 512) :
    k0_pay10 (F := Ideal) x2 x3 s0 (ix2 p q) = k0_pay8 (F := Ideal) x2 x3 s0 (ix2 p 0) := by
  unfold k0_pay10
  exact broadcastTo_a1_ab_apply _ _ p q

theorem pay11_row (v15 v22 : FVec Ideal S1024x512 .f32) (v38 : FVec Ideal S1024x1 .f32) (v39 : FVec Ideal S1024x512 .f32)
    (v45 : Vec Ideal S1024x1 .f32) (p : Fin 1024) :
    k0_pay11 (F := Ideal) v15 v22 v38 v39 v45 (ix2 p 0)
      = v45 (ix2 p 0) * v38 (ix2 p 0) + ∑ q : Fin 512, Ideal.exp (v22 (ix2 p q) - v39 (ix2 p q)) * (1 - v15 (ix2 p q)) := by
  unfold k0_pay11
  rw [shapeCast_self]
  refine (addf_apply _ _ _).trans ?_
  rw [rowSum_apply]
  refine congrArg (v45 (ix2 p 0) * v38 (ix2 p 0) + ·) (Finset.sum_congr rfl fun q _ => ?_)
  show Ideal.exp (v22 (ix2 p q) - v39 (ix2 p q)) * (Ideal.ofBits .f32 0x3F800000#32 - v15 (ix2 p q)) = _
  rw [ofBits_one]

theorem pay12_row (v22 v32 : FVec Ideal S1024x512 .f32) (v53 : Vec Ideal S1024x1 .f32) (p : Fin 1024) :
    k0_pay12 (F := Ideal) v22 v32 v53 (ix2 p 0) = v53 (ix2 p 0) + ∑ q : Fin 512, v32 (ix2 p q) * v22 (ix2 p q) := by
  unfold k0_pay12
  rw [shapeCast_self]
  refine (addf_apply _ _ _).trans ?_
  rw [rowSum_apply]
  rfl

theorem pay13_row (v32 : FVec Ideal S1024x512 .f32) (v61 : Vec Ideal S1024x1 .f32) (p : Fin 1024) :
    k0_pay13 (F := Ideal) v32 v61 (ix2 p 0) = v61 (ix2 p 0) + ∑ q : Fin 512, v32 (ix2 p q) := by
  unfold k0_pay13
  rw [shapeCast_self]
  refine (addf_apply _ _ _).trans ?_
  rw [rowSum_apply]

theorem sitofp_ogt_zero (x : EReal) :
    FloatOps.sitofp (F := Ideal) .f32 ((Ideal.cmp .ogt x 0).setWidth 32) = if 0 < x then (1 : EReal) else 0 := by
  by_cases h : 0 < x
  · have e : Ideal.cmp .ogt x 0 = 1#1 := by
      show BitVec.ofBool (decide (0 < x)) = 1#1
      rw [decide_eq_true h]; rfl
    rw [if_pos h, e, sitofp_bit_one]
  · have e : Ideal.cmp .ogt x 0 = 0#1 := by
      show BitVec.ofBool (decide (0 < x)) = 0#1
      rw [decide_eq_false h]; rfl
    rw [if_neg h, e, sitofp_bit_zero]

/-- The reset values are the empty accumulators. -/
theorem reset_row (p : Fin 1024) :
    k0_pay1 (F := Ideal) (ix2 p 0) = Acc.init.m ∧ k0_pay2 (F := Ideal) (ix2 p 0) = Acc.init.s
      ∧ k0_pay3 (F := Ideal) (ix2 p 0) = Acc.init.p ∧ k0_pay4 (F := Ideal) (ix2 p 0) = Acc.init.n := by
  refine ⟨?_, ?_, ?_, ?_⟩
  · unfold k0_pay1
    rw [shapeCast_self]
    exact ofBits_neg_inf
  · unfold k0_pay2
    rw [shapeCast_self]
    exact Ideal.ofBits_zero_f32
  · unfold k0_pay3
    rw [shapeCast_self]
    exact Ideal.ofBits_zero_f32
  · unfold k0_pay4
    rw [shapeCast_self]
    exact Ideal.ofBits_zero_f32

/-- One tile's stores on one row are one step of the running accumulators. -/
theorem step_row (i : grid0.Coords) (a : Fin 4) (j : Fin 8) (ha : (i 0).val = a.val) (hj : (i 1).val = j.val)
    (x2 : Vec Ideal S1024x256 .bf16) (x3 : Vec Ideal S512x256 .bf16) (x4 : Vec Ideal S1024x1 .i32) (x5 : Vec Ideal S1x512 .i32)
    (s0 s1 s2 s3 : Vec Ideal S1024x1 .f32)
    (hx2 : ∀ (p : Fin 1024) (k : Fin 256), x2 (ix2 p k) = E (rowOf a p) k)
    (hx3 : ∀ (q : Fin 512) (k : Fin 256), x3 (ix2 q k) = E (col j q) k)
    (hx4 : ∀ p : Fin 1024, x4 (ix2 p 0) = lab (rowOf a p))
    (hx5 : ∀ q : Fin 512, x5 (ix2 0 q) = lab (col j q)) (p : Fin 1024) :
    let A : Acc := ⟨s0 (ix2 p 0), s1 (ix2 p 0), s2 (ix2 p 0), s3 (ix2 p 0)⟩
    let A' : Acc := Acc.step (fun q => sim E (rowOf a p) (col j q)) (fun q => eye (rowOf a p) (col j q)) (fun q => mask lab (rowOf a p) (col j q)) A
    k0_pay14 (F := Ideal) (k0_pay8 x2 x3 s0) (ix2 p 0) = A'.m
      ∧ k0_pay11 (F := Ideal) (k0_pay5 i) (k0_pay6 x2 x3) (k0_pay9 x2 x3 s0) (k0_pay10 x2 x3 s0) s1 (ix2 p 0) = A'.s
      ∧ k0_pay12 (F := Ideal) (k0_pay6 x2 x3) (k0_pay7 i x4 x5) s2 (ix2 p 0) = A'.p
      ∧ k0_pay13 (F := Ideal) (k0_pay7 i x4 x5) s3 (ix2 p 0) = A'.n := by
  intro A A'
  have h6 : (fun q : Fin 512 => k0_pay6 (F := Ideal) x2 x3 (ix2 p q)) = fun q => sim E (rowOf a p) (col j q) :=
    funext fun q => pay6_apply E a j x2 x3 hx2 hx3 p q
  have h5 : (fun q : Fin 512 => k0_pay5 (F := Ideal) i (ix2 p q)) = fun q => eye (rowOf a p) (col j q) :=
    funext fun q => pay5_apply i a j ha hj p q
  have h7 : (fun q : Fin 512 => k0_pay7 (F := Ideal) i x4 x5 (ix2 p q)) = fun q => mask lab (rowOf a p) (col j q) :=
    funext fun q => pay7_apply lab i a j ha hj x4 x5 hx4 hx5 p q
  have h8 : k0_pay8 (F := Ideal) x2 x3 s0 (ix2 p 0) = A'.m := by
    rw [pay8_row, h6]
    rfl
  refine ⟨?_, ?_, ?_, ?_⟩
  · unfold k0_pay14
    rw [shapeCast_self]
    exact h8
  · rw [pay11_row, pay9_row, h8]
    refine congrArg (s1 (ix2 p 0) * Ideal.exp (s0 (ix2 p 0) - A'.m) + ·) (Finset.sum_congr rfl fun q _ => ?_)
    rw [pay10_row, h8, congrFun h6 q, congrFun h5 q]
    rfl
  · rw [pay12_row]
    refine congrArg (s2 (ix2 p 0) + ·) (Finset.sum_congr rfl fun q _ => ?_)
    rw [congrFun h6 q, congrFun h7 q]
  · rw [pay13_row]
    exact congrArg (s3 (ix2 p 0) + ·) (Finset.sum_congr rfl fun q _ => congrFun h7 q)

/-- The closing stores, read at a lane. -/
theorem close_loss (n s pp mm : Vec Ideal S1024x1 .f32) (p : Fin 1024) :
    k0_pay16 (F := Ideal) n s pp mm (ix2 p 0)
      = (if 0 < n (ix2 p 0) then
          0 - Ideal.div (pp (ix2 p 0) - mm (ix2 p 0) * n (ix2 p 0) - Ideal.log (s (ix2 p 0) + eps) * n (ix2 p 0)) (n (ix2 p 0) + eps)
        else 0) := by
  unfold k0_pay16
  show Scalar.select (Ideal.cmp .ogt (n (ix2 p 0)) (Ideal.ofBits .f32 0x00000000#32))
      (Ideal.ofBits .f32 0x00000000#32 - Ideal.div (pp (ix2 p 0) - mm (ix2 p 0) * n (ix2 p 0)
        - Ideal.log (s (ix2 p 0) + Ideal.ofBits .f32 0x322BCC77#32) * n (ix2 p 0)) (n (ix2 p 0) + Ideal.ofBits .f32 0x322BCC77#32))
      (Ideal.ofBits .f32 0x00000000#32) = _
  rw [Ideal.ofBits_zero_f32, select_ogt_zero]
  rfl

theorem close_valid (n : Vec Ideal S1024x1 .f32) (p : Fin 1024) :
    k0_pay15 (F := Ideal) n (ix2 p 0) = (if 0 < n (ix2 p 0) then (1 : EReal) else 0) := by
  unfold k0_pay15
  show FloatOps.sitofp (F := Ideal) .f32 ((Ideal.cmp .ogt (n (ix2 p 0)) (Ideal.ofBits .f32 0x00000000#32)).setWidth 32) = _
  rw [Ideal.ofBits_zero_f32, sitofp_ogt_zero]

end Cert.KernelIdeal.Val

end
-- ==== Proof.KBlocks.lean ====
import proofs.«144165_j35948876268190_1_alg».proof.Proof.KPre
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

variable (m : (ℓ : Loc nD τ sig) → Buf (Elt F) ℓ)

theorem coords0 (t : Fin cfg0.N) : ((grid0.coords t) 0).val = t.val / 8 := by
  have := t.isLt
  have hN : cfg0.N = 32 := N_0
  show t.val / 8 % 4 = t.val / 8
  omega

theorem coords1 (t : Fin cfg0.N) : ((grid0.coords t) 1).val = t.val % 8 := by
  show t.val / 1 % 8 = t.val % 8
  omega

/-- The windows' block indices over the grid, decided once. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0)

/-- An input block at a lane is its array at the row tile's row or the column tile's column. -/
theorem iblk0_apply (c : Dev nD) (t : Fin cfg0.N) (p : Fin 1024) (k : Fin 256) :
    iblk m c 0 t (ix2 p k) = (V m c main_v7 : S4096x256.Idx → Elt F .bf16) (ix2 ⟨(t.val / 8) * 1024 + p.val, by have := t.isLt; have : cfg0.N = 32 := N_0; omega⟩ k) := by
  obtain ⟨e0, e1, -⟩ := idx_facts t
  show V m c main_v7 (((cfg0.win 0).blk t).view.emb (ix2 p k)) = V m c main_v7 _
  refine congrArg _ ?_
  funext a; apply Fin.ext
  match a with
  | ⟨0, _⟩ => show win0_0.index t (0 : Fin 2) * 1024 + 1 * p.val = t.val / 8 * 1024 + p.val; omega
  | ⟨1, _⟩ => show win0_0.index t (1 : Fin 2) * 256 + 1 * k.val = k.val; omega

theorem iblk1_apply (c : Dev nD) (t : Fin cfg0.N) (q : Fin 512) (k : Fin 256) :
    iblk m c 1 t (ix2 q k) = (V m c main_v7 : S4096x256.Idx → Elt F .bf16) (ix2 ⟨(t.val % 8) * 512 + q.val, by omega⟩ k) := by
  obtain ⟨-, -, e0, e1, -⟩ := idx_facts t
  show V m c main_v7 (((cfg0.win 1).blk t).view.emb (ix2 q k)) = V m c main_v7 _
  refine congrArg _ ?_
  funext a; apply Fin.ext
  match a with
  | ⟨0, _⟩ => show win0_1.index t (0 : Fin 2) * 512 + 1 * q.val = t.val % 8 * 512 + q.val; omega
  | ⟨1, _⟩ => show win0_1.index t (1 : Fin 2) * 256 + 1 * k.val = k.val; omega

theorem iblk2_apply (c : Dev nD) (t : Fin cfg0.N) (p : Fin 1024) :
    iblk m c 2 t (ix2 p 0) = (V m c main_v8 : S4096x1.Idx → Elt F .i32) (ix2 ⟨(t.val / 8) * 1024 + p.val, by have := t.isLt; have : cfg0.N = 32 := N_0; omega⟩ 0) := by
  obtain ⟨-, -, -, -, e0, e1, -⟩ := idx_facts t
  show V m c main_v8 (((cfg0.win 2).blk t).view.emb (ix2 p 0)) = V m c main_v8 _
  refine congrArg _ ?_
  funext a; apply Fin.ext
  match a with
  | ⟨0, _⟩ => show win0_2.index t (0 : Fin 2) * 1024 + 1 * p.val = t.val / 8 * 1024 + p.val; omega
  | ⟨1, _⟩ => show win0_2.index t (1 : Fin 2) * 1 + 1 * 0 = 0; omega

theorem iblk3_apply (c : Dev nD) (t : Fin cfg0.N) (q : Fin 512) :
    iblk m c 3 t (ix2 0 q) = (V m c main_v9 : S1x4096.Idx → Elt F .i32) (ix2 0 ⟨(t.val % 8) * 512 + q.val, by omega⟩) := by
  obtain ⟨-, -, -, -, -, -, e0, e1, -⟩ := idx_facts t
  show V m c main_v9 (((cfg0.win 3).blk t).view.emb (ix2 0 q)) = V m c main_v9 _
  refine congrArg _ ?_
  funext a; apply Fin.ext
  match a with
  | ⟨0, _⟩ => show win0_3.index t (0 : Fin 2) * 1 + 1 * 0 = 0; omega
  | ⟨1, _⟩ => show win0_3.index t (1 : Fin 2) * 512 + 1 * q.val = t.val % 8 * 512 + q.val; omega

end Cert.KernelIdeal.Hand

end
-- ==== Proof.KInv.lean ====
import proofs.«144165_j35948876268190_1_alg».proof.Proof.KDataPay
import proofs.«144165_j35948876268190_1_alg».proof.Proof.KValStep
import proofs.«144165_j35948876268190_1_alg».proof.Proof.KBlocks
import proofs.«144165_j35948876268190_1_alg».proof.Proof.Online

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Cert.Spec Cert.Online

variable (m : (ℓ : Loc nD τ sig) → Buf (Elt Ideal) ℓ) (c : Dev nD)

def Ek : Fin 4096 → Fin 256 → EReal := fun r k => (V (F := Ideal) m c main_v7 : S4096x256.Idx → EReal) (ix2 r k)
def labk : Fin 4096 → BitVec 32 := fun r => (V (F := Ideal) m c main_v8 : S4096x1.Idx → BitVec 32) (ix2 r 0)

theorem tile_lt (t : Fin cfg0.N) : t.val / 8 < 4 := by
  have := t.isLt
  have : cfg0.N = 32 := N_0
  omega

theorem rowAcc_succ (E : Fin 4096 → Fin 256 → EReal) (lab : Fin 4096 → BitVec 32) (r : Fin 4096) (j : ℕ) (hj : j < 8) :
    rowAcc E lab r (j + 1) = Acc.step (fun q => sim E r (col ⟨j, hj⟩ q)) (fun q => eye r (col ⟨j, hj⟩ q))
      (fun q => mask lab r (col ⟨j, hj⟩ q)) (rowAcc E lab r j) := by
  unfold rowAcc
  rw [accAt, dif_pos hj]

/-- The four columns hold at lane `p` the accumulators `A`. -/
abbrev Holds4 (s0 s1 s2 s3 : Vec Ideal S1024x1 .f32) (p : Fin 1024) (A : Acc) : Prop :=
  s0 (ix2 p 0) = A.m ∧ s1 (ix2 p 0) = A.s ∧ s2 (ix2 p 0) = A.p ∧ s3 (ix2 p 0) = A.n

abbrev Holds (o : Outs Ideal) (p : Fin 1024) (A : Acc) : Prop := Holds4 o.2.2.1 o.2.2.2.1 o.2.2.2.2.1 o.2.2.2.2.2 p A

variable (hlab9 : ∀ r : Fin 4096, (V (F := Ideal) m c main_v9 : S1x4096.Idx → BitVec 32) (ix2 0 r) = labk m c r)
include hlab9

/-- One tile on one row: from the row's accumulators after `j` tiles the stored payloads are those after `j + 1`, the
    input blocks being the row tile's and the column tile's embeddings and labels. -/
theorem point_inv (t : Fin cfg0.N) (a : Fin 4) (ha : a.val = t.val / 8) (j : ℕ) (hj : j = t.val % 8)
    (s0 s1 s2 s3 : Vec Ideal S1024x1 .f32) (p : Fin 1024) (hs : Holds4 s0 s1 s2 s3 p (rowAcc (Ek m c) (labk m c) (rowOf a p) j)) :
    Holds4 (k0_pay14 (F := Ideal) (k0_pay8 (iblk m c 0 t) (iblk m c 1 t) s0))
      (k0_pay11 (F := Ideal) (k0_pay5 (grid0.coords t)) (k0_pay6 (iblk m c 0 t) (iblk m c 1 t)) (k0_pay9 (iblk m c 0 t) (iblk m c 1 t) s0) (k0_pay10 (iblk m c 0 t) (iblk m c 1 t) s0) s1)
      (k0_pay12 (F := Ideal) (k0_pay6 (iblk m c 0 t) (iblk m c 1 t)) (k0_pay7 (grid0.coords t) (iblk m c 2 t) (iblk m c 3 t)) s2)
      (k0_pay13 (F := Ideal) (k0_pay7 (grid0.coords t) (iblk m c 2 t) (iblk m c 3 t)) s3) p (rowAcc (Ek m c) (labk m c) (rowOf a p) (j + 1)) := by
  subst hj
  have hj8 : t.val % 8 < 8 := Nat.mod_lt _ (by decide)
  obtain rfl : a = ⟨t.val / 8, tile_lt t⟩ := Fin.ext ha
  obtain ⟨h0, h1, h2, h3⟩ := hs
  obtain ⟨e0, e1, e2, e3⟩ := step_row (Ek m c) (labk m c) (grid0.coords t) ⟨t.val / 8, tile_lt t⟩ ⟨t.val % 8, hj8⟩
    (coords0 t) (coords1 t) (iblk m c 0 t) (iblk m c 1 t) (iblk m c 2 t) (iblk m c 3 t) s0 s1 s2 s3
    (fun p k => iblk0_apply m c t p k) (fun q k => iblk1_apply m c t q k) (fun p => iblk2_apply m c t p)
    (fun q => (iblk3_apply m c t q).trans (hlab9 (col ⟨t.val % 8, hj8⟩ q))) p
  rw [h0, h1, h2, h3] at e0 e1 e2 e3
  rw [rowAcc_succ (Ek m c) (labk m c) _ (t.val % 8) hj8]
  exact ⟨e0, e1, e2, e3⟩

/-- A row's first tile starts from the reset values, the empty accumulators; -/
theorem inv_first (t : Fin cfg0.N) (h0 : t.val % 8 = 0) (a : Fin 4) (ha : a.val = t.val / 8) (j : ℕ) (hj : j = t.val % 8) (p : Fin 1024) :
    Holds (outsAt0 (F := Ideal) m c t.val t.isLt) p (rowAcc (Ek m c) (labk m c) (rowOf a p) (j + 1)) := by
  rw [outsAt0_A m c t h0 (by omega), payA]
  refine point_inv m c hlab9 t a ha j hj _ _ _ _ p ?_
  obtain rfl : j = 0 := hj.trans h0
  exact reset_row p

/-- every other tile from what the tile before left. -/
theorem inv_next (t : Fin cfg0.N) (h0 : ¬t.val % 8 = 0) (a : Fin 4) (ha : a.val = t.val / 8) (j : ℕ) (hj : j = t.val % 8) (p : Fin 1024)
    (hprev : Holds (prevOuts (F := Ideal) m c t) p (rowAcc (Ek m c) (labk m c) (rowOf a p) j)) : Holds (outsAt0 (F := Ideal) m c t.val t.isLt) p (rowAcc (Ek m c) (labk m c) (rowOf a p) (j + 1)) := by
  by_cases h7 : t.val % 8 = 7
  · rw [outsAt0_C m c t h0 h7, payC]; exact point_inv m c hlab9 t a ha j hj _ _ _ _ p hprev
  · rw [outsAt0_B m c t h0 h7, payB]; exact point_inv m c hlab9 t a ha j hj _ _ _ _ p hprev

/-- After position `n` the scratch columns hold, at lane `p`, the accumulators of row `p` of row tile `n / 8` after its
    first `n % 8 + 1` column tiles: by induction on the position. -/
theorem scratch_inv : ∀ (n : ℕ) (hn : n < cfg0.N) (a : Fin 4) (j : ℕ), a.val = n / 8 → j = n % 8 → ∀ p : Fin 1024,
    Holds (outsAt0 (F := Ideal) m c n hn) p (rowAcc (Ek m c) (labk m c) (rowOf a p) (j + 1)) := by
  intro n
  induction n with
  | zero => exact fun hn a j ha hj p => inv_first m c hlab9 ⟨0, hn⟩ rfl a ha j hj p
  | succ n ih =>
    intro hn a j ha hj p
    by_cases h0 : (n + 1) % 8 = 0
    · exact inv_first m c hlab9 ⟨n + 1, hn⟩ h0 a ha j hj p
    · obtain rfl : j = n % 8 + 1 := by omega
      exact inv_next m c hlab9 ⟨n + 1, hn⟩ h0 a ha _ hj p (ih (Nat.lt_of_succ_lt hn) a (n % 8) (by omega) rfl p)

/-- At a row tile's last point the two outputs hold, at lane `p`, the row's loss and its validity flag: the closing
    stores on the final accumulators, which are the whole row's quantities when the embeddings are finite. -/
theorem out_last (hE : ∀ r k, ∃ x : ℝ, Ek m c r k = (x : EReal)) (t : Fin cfg0.N) (h7 : t.val % 8 = 7) (p : Fin 1024) :
    (outsAt0 (F := Ideal) m c t.val t.isLt).1 (ix2 p 0) = rowLoss (Ek m c) (labk m c) ⟨(t.val / 8) * 1024 + p.val, by have := t.isLt; have : cfg0.N = 32 := N_0; omega⟩
    ∧ (outsAt0 (F := Ideal) m c t.val t.isLt).2.1 (ix2 p 0) = rowValid (labk m c) ⟨(t.val / 8) * 1024 + p.val, by have := t.isLt; have : cfg0.N = 32 := N_0; omega⟩ := by
  have h0 : ¬t.val % 8 = 0 := by omega
  have hinv := scratch_inv m c hlab9 t.val t.isLt ⟨t.val / 8, tile_lt t⟩ (t.val % 8) rfl rfl p
  rw [h7] at hinv
  rw [outsAt0_C m c t h0 h7, payC] at hinv ⊢
  dsimp only [Holds, Holds4] at hinv ⊢
  obtain ⟨i0, i1, i2, i3⟩ := hinv
  refine ⟨(close_loss _ _ _ _ p).trans ?_, (close_valid _ p).trans ?_⟩
  · rw [i0, i1, i2, i3]; exact finish_row (Ek m c) (labk m c) hE _
  · rw [i3]; exact finish_valid (Ek m c) (labk m c) hE _

end Cert.KernelIdeal.Val

end
-- ==== Proof.KFinal.lean ====
import proofs.«144165_j35948876268190_1_alg».proof.Proof.KBlocks
import proofs.«144165_j35948876268190_1_alg».proof.Proof.KData
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

variable (m : (ℓ : Loc nD τ sig) → Buf (Elt F) ℓ)

theorem col1024_ext {α : Type} (f g : S1024x1.Idx → α) (h : ∀ p : Fin 1024, f (ix2 p 0) = g (ix2 p 0)) : f = g := by
  funext j
  have hj : j = ix2 (j 0) 0 := by
    funext a
    match a with
    | ⟨0, _⟩ => rfl
    | ⟨1, _⟩ => apply Fin.ext; have := idx2_lt1 j; show (j 1).val = 0; omega
  rw [hj]; exact h (j 0)

theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v10_0).slice (win0_4.rect t)).set ↔ _
  rw [View.set_slice_whole, Rect.mem_set_unit]
  exact Iff.rfl

/-- A row tile's last point writes the tile's 1024 rows of the output back; these blocks cover the array. -/
theorem flushed4_eq (c : Dev nD) (L : Fin 4096 → Elt F .f32)
    (hL : ∀ (t : Fin cfg0.N), t.val % 8 = 7 → ∀ p : Fin 1024,
      (outsAt0 m c t.val t.isLt).1 (ix2 p 0) = L ⟨(t.val / 8) * 1024 + p.val, by have := t.isLt; have : cfg0.N = 32 := N_0; omega⟩)
    (t : Fin cfg0.N) (hf : (cfg0.win 4).flush t = true) :
    (dats m 0 c).flushed 4 t = ((cfg0.win 4).blk t).view.read (Elt F) (fun i : S4096x1.Idx => L (i 0)) := by
  have h7 : t.val % 8 = 7 := (flush0_4 t).mp hf
  show (cfg0.win 4).cut (grid0.coords t) ((dats m 0 c).after 4 t) = _
  rw [after0_4]
  refine col1024_ext _ _ fun p => ?_
  obtain ⟨-, -, -, -, -, -, -, -, e0, e1, -⟩ := idx_facts t
  show (outsAt0 m c t.val t.isLt).1 (ix2 p 0) = L ((((cfg0.win 4).blk t).view.emb (ix2 p 0)) 0)
  rw [hL t h7 p]
  refine congrArg L (Fin.ext ?_)
  show t.val / 8 * 1024 + p.val = win0_4.index t (0 : Fin 2) * 1024 + 1 * p.val
  omega

theorem cover4 (i : S4096x1.Idx) : ∃ t : Fin cfg0.N, (cfg0.win 4).flush t = true ∧ i ∈ ((cfg0.win 4).blk t).view.set := by
  have hN : cfg0.N = 32 := N_0
  have hi0 : (i 0).val < 4096 := idx2_lt0 i
  have hi1 : (i 1).val < 1 := idx2_lt1 i
  have hlt : (i 0).val / 1024 * 8 + 7 < cfg0.N := by omega
  refine ⟨⟨(i 0).val / 1024 * 8 + 7, hlt⟩, (flush0_4 _).mpr (by show ((i 0).val / 1024 * 8 + 7) % 8 = 7; omega), ?_⟩
  rw [mem_blk4]
  obtain ⟨-, -, -, -, -, -, -, -, e0, e1, -⟩ := idx_facts ⟨(i 0).val / 1024 * 8 + 7, hlt⟩
  have e0' : win0_4.index ⟨(i 0).val / 1024 * 8 + 7, hlt⟩ (0 : Fin 2) = ((i 0).val / 1024 * 8 + 7) / 8 := e0
  intro a
  match a with
  | ⟨0, _⟩ => show win0_4.index _ (0 : Fin 2) * 1024 ≤ (i 0).val ∧ (i 0).val < win0_4.index _ (0 : Fin 2) * 1024 + 1024; omega
  | ⟨1, _⟩ => show win0_4.index _ (1 : Fin 2) * 1 ≤ (i 1).val ∧ (i 1).val < win0_4.index _ (1 : Fin 2) * 1 + 1; omega

/-- So after the run the output array is the row function, row by row. -/
theorem final4 (c : Dev nD) (L : Fin 4096 → Elt F .f32)
    (hL : ∀ (t : Fin cfg0.N), t.val % 8 = 7 → ∀ p : Fin 1024,
      (outsAt0 m c t.val t.isLt).1 (ix2 p 0) = L ⟨(t.val / 8) * 1024 + p.val, by have := t.isLt; have : cfg0.N = 32 := N_0; omega⟩) :
    ∀ r : Fin 4096, ((dats m 0 c).arrAt 4 cfg0.N : S4096x1.Idx → Elt F .f32) (ix2 r 0) = L r := by
  intro r
  rw [(dats m 0 c).arrAt_eq_of_cover 4 (fun i : S4096x1.Idx => L (i 0)) (fun t hf => flushed4_eq m c L hL t hf) cover4]

theorem mem_blk5 (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v10_1).slice (win0_5.rect t)).set ↔ _
  rw [View.set_slice_whole, Rect.mem_set_unit]
  exact Iff.rfl

theorem flushed5_eq (c : Dev nD) (L : Fin 4096 → Elt F .f32)
    (hL : ∀ (t : Fin cfg0.N), t.val % 8 = 7 → ∀ p : Fin 1024,
      (outsAt0 m c t.val t.isLt).2.1 (ix2 p 0) = L ⟨(t.val / 8) * 1024 + p.val, by have := t.isLt; have : cfg0.N = 32 := N_0; omega⟩)
    (t : Fin cfg0.N) (hf : (cfg0.win 5).flush t = true) :
    (dats m 0 c).flushed 5 t = ((cfg0.win 5).blk t).view.read (Elt F) (fun i : S4096x1.Idx => L (i 0)) := by
  have h7 : t.val % 8 = 7 := (flush0_5 t).mp hf
  show (cfg0.win 5).cut (grid0.coords t) ((dats m 0 c).after 5 t) = _
  rw [after0_5]
  refine col1024_ext _ _ fun p => ?_
  obtain ⟨-, -, -, -, -, -, -, -, -, -, e0, e1⟩ := idx_facts t
  show (outsAt0 m c t.val t.isLt).2.1 (ix2 p 0) = L ((((cfg0.win 5).blk t).view.emb (ix2 p 0)) 0)
  rw [hL t h7 p]
  refine congrArg L (Fin.ext ?_)
  show t.val / 8 * 1024 + p.val = win0_5.index t (0 : Fin 2) * 1024 + 1 * p.val
  omega

theorem cover5 (i : S4096x1.Idx) : ∃ t : Fin cfg0.N, (cfg0.win 5).flush t = true ∧ i ∈ ((cfg0.win 5).blk t).view.set := by
  have hN : cfg0.N = 32 := N_0
  have hi0 : (i 0).val < 4096 := idx2_lt0 i
  have hi1 : (i 1).val < 1 := idx2_lt1 i
  have hlt : (i 0).val / 1024 * 8 + 7 < cfg0.N := by omega
  refine ⟨⟨(i 0).val / 1024 * 8 + 7, hlt⟩, (flush0_5 _).mpr (by show ((i 0).val / 1024 * 8 + 7) % 8 = 7; omega), ?_⟩
  rw [mem_blk5]
  obtain ⟨-, -, -, -, -, -, -, -, -, -, e0, e1⟩ := idx_facts ⟨(i 0).val / 1024 * 8 + 7, hlt⟩
  have e0' : win0_5.index ⟨(i 0).val / 1024 * 8 + 7, hlt⟩ (0 : Fin 2) = ((i 0).val / 1024 * 8 + 7) / 8 := e0
  intro a
  match a with
  | ⟨0, _⟩ => show win0_5.index _ (0 : Fin 2) * 1024 ≤ (i 0).val ∧ (i 0).val < win0_5.index _ (0 : Fin 2) * 1024 + 1024; omega
  | ⟨1, _⟩ => show win0_5.index _ (1 : Fin 2) * 1 ≤ (i 1).val ∧ (i 1).val < win0_5.index _ (1 : Fin 2) * 1 + 1; omega

theorem final5 (c : Dev nD) (L : Fin 4096 → Elt F .f32)
    (hL : ∀ (t : Fin cfg0.N), t.val % 8 = 7 → ∀ p : Fin 1024,
      (outsAt0 m c t.val t.isLt).2.1 (ix2 p 0) = L ⟨(t.val / 8) * 1024 + p.val, by have := t.isLt; have : cfg0.N = 32 := N_0; omega⟩) :
    ∀ r : Fin 4096, ((dats m 0 c).arrAt 5 cfg0.N : S4096x1.Idx → Elt F .f32) (ix2 r 0) = L r := by
  intro r
  rw [(dats m 0 c).arrAt_eq_of_cover 5 (fun i : S4096x1.Idx => L (i 0)) (fun t hf => flushed5_eq m c L hL t hf) cover5]

end Cert.KernelIdeal.Hand

end
-- ==== Proof.RefE.lean ====
import proofs.«144165_j35948876268190_1_alg».proof.Proof.RefRead
import Idealize.ShloMosaic.Lib.ValueIdx

noncomputable section

namespace Cert.RefSpec

open Idealize.ShloMosaic Idealize.ShloMosaic.ValueIdx Cert.ReferenceIdeal

/-- The normalised embeddings and the flattened labels, as the reference computes them from the inputs. -/
def Eof (x0 : (⟨S2x2048x256, .f32⟩ : BufTy).Contents (Elt Ideal)) : Fin 4096 → Fin 256 → EReal :=
  fun r k => Cert.ReferenceIdeal.ReadP.val_main_v6 (F := Ideal) x0 (ix2 r k)

def labOf (x1 : (⟨S2x2048, .i32⟩ : BufTy).Contents (Elt Ideal)) : Fin 4096 → BitVec 32 :=
  fun r => Cert.ReferenceIdeal.ReadP.val_main_v1 (F := Ideal) x1 (ix1 r)

end Cert.RefSpec

end
-- ==== Proof.KValHost.lean ====
import proofs.«144165_j35948876268190_1_alg».proof.Proof.KPre
import proofs.«144165_j35948876268190_1_alg».proof.Proof.RefE
import proofs.«144165_j35948876268190_1_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Cert.KernelIdeal.Hand
open Idealize.ShloMosaic Idealize.ShloMosaic.ValueIdx Idealize.ShloMosaic.TcCoe Idealize.SL.Sem

/-- The mean of the row losses over the valid rows (at least one). -/
def finish (L D : Fin 4096 → EReal) : EReal := Ideal.div (∑ r : Fin 4096, L r) (max (∑ r : Fin 4096, D r) 1) * 1

theorem loss_eq_finish (E : Fin 4096 → Fin 256 → EReal) (lab : Fin 4096 → BitVec 32) :
    Cert.Spec.loss E lab = finish (Cert.Spec.rowLoss E lab) (Cert.Spec.rowValid lab) := rfl

theorem sum_col (f : S4096x1.Idx → EReal) : ∑ j : S4096x1.Idx, f j = ∑ r : Fin 4096, f (ix2 r 0) := by
  rw [sum_idx2]
  refine Finset.sum_congr rfl fun r _ => ?_
  rw [Fin.sum_univ_one]

/-- The host operations after the region compute it from the two output arrays. -/
theorem tail_val (W : Valuation τ sig (Elt Ideal)) :
    (StableHlo.after (hostOps1 (F := Ideal)) W (Proc.devRef .tc main_v15) : S_.Idx → EReal)
      = fun _ => finish (fun r => (W (Proc.devRef .tc main_v10_0) : S4096x1.Idx → EReal) (ix2 r 0))
                        (fun r => (W (Proc.devRef .tc main_v10_1) : S4096x1.Idx → EReal) (ix2 r 0)) := by
  have e : (StableHlo.after (hostOps1 (F := Ideal)) W (Proc.devRef .tc main_v15) : S_.Idx → EReal)
      = mulf (Host.divf
          (Host.reduceAdd (W (Proc.devRef .tc main_v10_0) : S4096x1.Idx → EReal) (constant (F := Ideal) S_ .f32 0x00000000#32) reducesTo_S4096x1_S_d0_1 h_S_)
          (maximumf (Host.reduceAdd (W (Proc.devRef .tc main_v10_1) : S4096x1.Idx → EReal) (constant (F := Ideal) S_ .f32 0x00000000#32) reducesTo_S4096x1_S_d0_1 h_S_)
            (constant (F := Ideal) S_ .f32 0x3F800000#32)))
        (constant (F := Ideal) S_ .f32 0x3F800000#32) := by
    after_results
  rw [e]
  funext i
  show FloatOps.mulf (FloatOps.hostDivf
      (Host.reduceAdd (W (Proc.devRef .tc main_v10_0) : S4096x1.Idx → EReal) (constant (F := Ideal) S_ .f32 0x00000000#32) reducesTo_S4096x1_S_d0_1 h_S_ i)
      (FloatOps.maximumf (Host.reduceAdd (W (Proc.devRef .tc main_v10_1) : S4096x1.Idx → EReal) (constant (F := Ideal) S_ .f32 0x00000000#32) reducesTo_S4096x1_S_d0_1 h_S_ i)
        (FloatOps.ofBits (F := Ideal) .f32 0x3F800000#32)))
    (FloatOps.ofBits (F := Ideal) .f32 0x3F800000#32) = _
  simp only [Host.reduceAdd, Ideal.hostReduceAdd_def]
  rw [Ideal.hostReduceAdd_total reducesTo_S4096x1_S_d0_1 (fun b => b.elim0),
    Ideal.hostReduceAdd_total reducesTo_S4096x1_S_d0_1 (fun b => b.elim0)]
  simp only [constant_apply, Ideal.mulf_def, Ideal.hostDivf_def, Ideal.maximumf_def, Ideal.ofBits_def,
    Ideal.ofBits_zero_f32, Cert.Spec.ofBits_one, zero_add, sum_col]
  rfl

variable (m : (ℓ : Loc nD τ sig) → Buf (Elt Ideal) ℓ) (c : Dev nD)

/-- The arrays the region finds: the flattened labels (as a column and as a row) and the normalised embeddings. -/
theorem V_v8 (r : Fin 4096) :
    (V (F := Ideal) m c main_v8 : S4096x1.Idx → BitVec 32) (ix2 r 0)
      = Cert.RefSpec.labOf (m ((c.tc : Thread nD τ).loc main_arg1)) r := by
  have e : (V (F := Ideal) m c main_v8 : S4096x1.Idx → BitVec 32)
      = shapeCast S4096x1 (shapeCast S4096 (m ((c.tc : Thread nD τ).loc main_arg1) : S2x2048.Idx → BitVec 32) shapeCasts_S2x2048_S4096) shapeCasts_S4096_S4096x1 := by
    dsimp only [V, V0, preOps]
    simp only [hostOps0, hostOps0_1, hostOps0_2, List.flatten_cons, List.flatten_nil, List.append_nil, List.cons_append, List.nil_append]
    after_results
    rfl
  rw [e]
  unfold Cert.RefSpec.labOf Cert.ReferenceIdeal.ReadP.val_main_v1
  exact shapeCast_apply _ shapeCasts_S4096_S4096x1 (ix2 r 0) (ix1 r)
    (by rewrite [Shape.rowMajor_val_two, Shape.rowMajor_val_one]; show r.val = r.val * 1 + 0; omega)

theorem V_v9 (r : Fin 4096) :
    (V (F := Ideal) m c main_v9 : S1x4096.Idx → BitVec 32) (ix2 0 r)
      = Cert.RefSpec.labOf (m ((c.tc : Thread nD τ).loc main_arg1)) r := by
  have e : (V (F := Ideal) m c main_v9 : S1x4096.Idx → BitVec 32)
      = shapeCast S1x4096 (shapeCast S4096 (m ((c.tc : Thread nD τ).loc main_arg1) : S2x2048.Idx → BitVec 32) shapeCasts_S2x2048_S4096) shapeCasts_S4096_S1x4096 := by
    dsimp only [V, V0, preOps]
    simp only [hostOps0, hostOps0_1, hostOps0_2, List.flatten_cons, List.flatten_nil, List.append_nil, List.cons_append, List.nil_append]
    after_results
    rfl
  rw [e]
  unfold Cert.RefSpec.labOf Cert.ReferenceIdeal.ReadP.val_main_v1
  exact shapeCast_apply _ shapeCasts_S4096_S1x4096 (ix2 0 r) (ix1 r)
    (by rewrite [Shape.rowMajor_val_two, Shape.rowMajor_val_one]; show r.val = 0 * 4096 + r.val; omega)

theorem V_v7 (r : Fin 4096) (k : Fin 256) :
    (V (F := Ideal) m c main_v7 : S4096x256.Idx → EReal) (ix2 r k)
      = Cert.RefSpec.Eof (m ((c.tc : Thread nD τ).loc main_arg0)) r k := by
  have e : (V (F := Ideal) m c main_v7 : S4096x256.Idx → EReal)
      = Cert.ReferenceIdeal.ReadP.val_main_v6 (F := Ideal) (m ((c.tc : Thread nD τ).loc main_arg0)) := by
    dsimp only [V, V0, preOps]
    simp only [hostOps0, hostOps0_1, hostOps0_2, List.flatten_cons, List.flatten_nil, List.append_nil, List.cons_append, List.nil_append]
    after_results
    simp only [StableHlo.TRef.ofBuf, StableHlo.TRef.toBuf, cast_eq]
    unfold Cert.ReferenceIdeal.ReadP.val_main_v6 Cert.ReferenceIdeal.ReadP.val_main_v5 Cert.ReferenceIdeal.ReadP.val_main_v4
      Cert.ReferenceIdeal.ReadP.val_main_v3 Cert.ReferenceIdeal.ReadP.val_main_cst Cert.ReferenceIdeal.ReadP.val_main_v2
      Cert.ReferenceIdeal.ReadP.val_main_call0_v2 Cert.ReferenceIdeal.ReadP.val_main_call0_v1
      Cert.ReferenceIdeal.ReadP.val_main_call0_cst Cert.ReferenceIdeal.ReadP.val_main_call0_v0
      Cert.ReferenceIdeal.ReadP.val_main_v0
    rfl
  rw [e]
  rfl

end Cert.KernelIdeal.Val

end
-- ==== Proof.Finite.lean ====
import proofs.«144165_j35948876268190_1_alg».proof.Proof.RefE
import proofs.«144165_j35948876268190_1_alg».proof.Pre_finite_inputs
import Idealize.ShloMosaic.Lib.ReduceAll

noncomputable section

namespace Cert.RefSpec

open Idealize.ShloMosaic Idealize.ShloMosaic.ValueIdx Cert.ReferenceIdeal

private theorem coe_sum {ι : Type} (s : Finset ι) (g : ι → ℝ) :
    ∑ k ∈ s, (g k : EReal) = ((∑ k ∈ s, g k : ℝ) : EReal) := by
  classical
  induction s using Finset.induction_on with
  | empty => simp
  | insert a s ha ih => rw [Finset.sum_insert ha, Finset.sum_insert ha, ih, EReal.coe_add]

private theorem real_of_abs_lt_top (x : EReal) (hx : max x (-x) < ⊤) : ∃ r : ℝ, x = (r : EReal) := by
  induction x using EReal.rec with
  | bot => simp at hx
  | coe r => exact ⟨r, rfl⟩
  | top => simp at hx

theorem input_real [Cert.Pre_finite_inputs.Facts] (x0 : (⟨S2x2048x256, .f32⟩ : BufTy).Contents (Elt Ideal)) (x1 : (⟨S2x2048, .i32⟩ : BufTy).Contents (Elt Ideal))
    (h : Cert.Pre_finite_inputs.fn (F := Ideal) x0 x1 = fun _ => 1#1) (i : S2x2048x256.Idx) :
    ∃ x : ℝ, x0 i = (x : EReal) := by
  haveI : Subsingleton Cert.Pre_finite_inputs.S_.Idx := ⟨fun a b => funext fun d => d.elim0⟩
  have h0 := congrFun h ValueIdx.ix0
  dsimp only [Cert.Pre_finite_inputs.fn] at h0
  have h1 := Host.reduce_andi_all _ _ _ _ _ h0 i
  change Ideal.cmp .olt (max (x0 i) (-(x0 i))) (Ideal.ofBits .f32 0x7F800000#32) = 1#1 at h1
  have htop : Ideal.ofBits .f32 0x7F800000#32 = ⊤ := by simp [Ideal.ofBits, Ideal.ieee]
  rw [htop] at h1
  refine real_of_abs_lt_top (x0 i) ?_
  by_contra hn
  simp [Ideal.cmp, hn] at h1

private theorem eps_pos_real : ∃ c : ℝ, 0 < c ∧ Ideal.ofBits .f32 0x2B8CBCCC#32 = (c : EReal) := by
  refine ⟨9223372 * (2 ^ 63)⁻¹, by positivity, ?_⟩
  simp [Ideal.ofBits, Ideal.ieee]

/-- With finite inputs every normalised embedding is a real: the clamped norm is a positive real. -/
theorem E_finite [Cert.Pre_finite_inputs.Facts] (x0 : (⟨S2x2048x256, .f32⟩ : BufTy).Contents (Elt Ideal)) (x1 : (⟨S2x2048, .i32⟩ : BufTy).Contents (Elt Ideal))
    (h : Cert.Pre_finite_inputs.fn (F := Ideal) x0 x1 = fun _ => 1#1) :
    ∀ r k, ∃ x : ℝ, Eof x0 r k = (x : EReal) := by
  choose f hf using input_real x0 x1 h
  obtain ⟨c, hc0, hc⟩ := eps_pos_real

  have hv0 : ∀ i : S4096x256.Idx,
      ReadP.val_main_v0 (F := Ideal) x0 i = ((f (ReadP.idx_main_v0 i) : ℝ) : EReal) := fun i => by
    rw [ReadP.val_main_v0_apply, hf]

  have hsum : ∀ j : S4096.Idx, ∃ s : ℝ, 0 ≤ s ∧ ReadP.val_main_call0_v1 (F := Ideal) x0 j = (s : EReal) := fun j => by
    refine ⟨∑ k' : Fin 256, f (ReadP.idx_main_v0 (ReadP.idx_main_call0_v1 j k')) * f (ReadP.idx_main_v0 (ReadP.idx_main_call0_v1 j k')),
      Finset.sum_nonneg fun k' _ => mul_self_nonneg _, ?_⟩
    have hz : FloatOps.ofBits (F := Ideal) .f32 0x00000000#32 = 0 := by simp [Ideal.ofBits, Ideal.ieee]
    rw [ReadP.val_main_call0_v1_apply, ReadP.val_main_call0_cst_apply, hz, zero_add, ← coe_sum]
    refine Finset.sum_congr rfl fun k' _ => ?_
    rw [ReadP.val_main_call0_v0_apply, hv0, Ideal.mulf_def, EReal.coe_mul]
  intro r k
  obtain ⟨s, hs0, hs⟩ := hsum (ReadP.idx_main_call0_v2 (ReadP.idx_main_v5 (ix2 r k)))

  have hden : ReadP.val_main_v5 (F := Ideal) x0 (ix2 r k) = ((max (Real.sqrt s) c : ℝ) : EReal) := by
    rw [ReadP.val_main_v5_apply, ReadP.val_main_v4_apply, ReadP.val_main_v2_apply, ReadP.val_main_call0_v2_apply, hs,
      ReadP.val_main_v3_apply, ReadP.val_main_cst_apply, Ideal.maximumf_def, Ideal.hostUnary_sqrt_def, Ideal.sqrt_coe,
      if_neg (not_lt.2 hs0), Ideal.ofBits_def, hc]
    exact (EReal.coe_strictMono.monotone.map_max).symm
  have hne : max (Real.sqrt s) c ≠ 0 := (lt_of_lt_of_le hc0 (le_max_right _ _)).ne'
  refine ⟨f (ReadP.idx_main_v0 (ix2 r k)) * (1 / max (Real.sqrt s) c), ?_⟩
  show ReadP.val_main_v6 (F := Ideal) x0 (ix2 r k) = _
  rw [ReadP.val_main_v6_apply, hv0, hden, Ideal.hostDivf_def, Ideal.div_coe hne, EReal.coe_mul]

end Cert.RefSpec

end
-- ==== Proof.KAssemble.lean ====
import proofs.«144165_j35948876268190_1_alg».proof.Defs
import proofs.«144165_j35948876268190_1_alg».proof.Proof.KLaunch
import proofs.«144165_j35948876268190_1_alg».proof.Proof.KData
import proofs.«144165_j35948876268190_1_alg».proof.Proof.KInv
import proofs.«144165_j35948876268190_1_alg».proof.Proof.KFinal
import proofs.«144165_j35948876268190_1_alg».proof.Proof.KValHost
import proofs.«144165_j35948876268190_1_alg».proof.Proof.Finite

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem Ek_eq (c : Dev nD) : Ek m c = Cert.RefSpec.Eof (m ((c.tc : Thread nD τ).loc main_arg0)) :=
  funext fun r => funext fun k => V_v7 m c r k
theorem labk_eq (c : Dev nD) : labk m c = Cert.RefSpec.labOf (m ((c.tc : Thread nD τ).loc main_arg1)) :=
  funext fun r => V_v8 m c r
theorem lab9 (c : Dev nD) (r : Fin 4096) : (V (F := Ideal) m c main_v9 : S1x4096.Idx → BitVec 32) (ix2 0 r) = labk m c r :=
  (V_v9 m c r).trans (V_v8 m c r).symm

/-- The result is the mean of the rows' losses over the valid rows: the two output arrays are the rows' losses and flags. -/
theorem result_val [Cert.Pre_finite_inputs.Facts] (c : Dev nD)
    (hpre : Cert.Pre_finite_inputs.fn (F := Ideal) (m ((c.tc : Thread nD τ).loc main_arg0)) (m ((c.tc : Thread nD τ).loc main_arg1)) = fun _ => 1#1) :
    (StableHlo.after (hostOps1 (F := Ideal)) (Vpost m (dats m) c) (dr main_v15) : S_.Idx → EReal)
      = fun _ => Cert.Spec.loss (Cert.RefSpec.Eof (m ((c.tc : Thread nD τ).loc main_arg0))) (Cert.RefSpec.labOf (m ((c.tc : Thread nD τ).loc main_arg1))) := by
  have hE : ∀ r k, ∃ x : ℝ, Ek m c r k = (x : EReal) := by
    rw [Ek_eq]; exact Cert.RefSpec.E_finite _ _ hpre
  rw [tail_val, loss_eq_finish, ← Ek_eq m c, ← labk_eq m c]
  funext _
  congr 1
  · funext r
    rw [Vpost_out0]
    exact final4 m c (Cert.Spec.rowLoss (Ek m c) (labk m c)) (fun t h7 p => (out_last m c (lab9 m c) hE t h7 p).1) r
  · funext r
    rw [Vpost_out1]
    exact final5 m c (Cert.Spec.rowValid (labk m c)) (fun t h7 p => (out_last m c (lab9 m c) hE t h7 p).2) r

/-- The program's run against the launch theorem, with the proof data of the pipeline. -/
theorem ran : θ_run (defs (F := Ideal)) (onTc (τ := τ) (main (F := Ideal))) ⟨m, fun _ => 0, ρ⟩ (fun r => ∀ c : Dev nD, QF m (dats m) c r.2) :=
  run_of m ρ (dats m) (A_eq m) (fun _ => rfl) (fun _ => rfl) (fun _ => rfl) (fun _ => rfl) (fun _ _ => rfl) (fun _ _ => rfl)
    (body_obligation m) (hin m) (hout m)

theorem run [Cert.Pre_finite_inputs.Facts]
    (hpre : ∀ c : Dev nD, Cert.Pre_finite_inputs.fn (F := Ideal) (m ((c.tc : Thread nD τ).loc main_arg0)) (m ((c.tc : Thread nD τ).loc main_arg1)) = fun _ => 1#1) :
    θ_run (defs (F := Ideal)) (onTc (τ := τ) (main (F := Ideal))) ⟨m, fun _ => 0, ρ⟩ (fun r => ∀ c : Dev nD,
      r.2.mem ((c.tc : Thread nD τ).loc main_v15) = (fun _ => Cert.Spec.loss (Cert.RefSpec.Eof (m ((c.tc : Thread nD τ).loc main_arg0))) (Cert.RefSpec.labOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1).trans (result_val m c (hpre c)), (h c).2⟩)
    (ran m ρ)

theorem frame :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2)
    (ran m ρ)

end Cert.KernelIdeal.Val

end
-- ==== Proof.RefIsSpec.lean ====
import proofs.«144165_j35948876268190_1_alg».proof.Proof.RefE
import proofs.«144165_j35948876268190_1_alg».proof.Proof.Spec
import Idealize.ShloMosaic.PureOps.Ideal.Laws
import Idealize.ShloMosaic.Lib.ValueIdxRank1

noncomputable section

namespace Cert.RefSpec

open Idealize.ShloMosaic Idealize.ShloMosaic.ValueIdx Cert.ReferenceIdeal

theorem ofBits_temp : Ideal.ofBits .f32 0x3D8F5C29#32 = ((9395241 / 134217728 : ℝ) : EReal) := by
  simp [Ideal.ofBits, Ideal.ieee, -EReal.coe_mul]; norm_num

section Stages

variable (x0 : (⟨S2x2048x256, .f32⟩ : BufTy).Contents (Elt Ideal)) (x1 : (⟨S2x2048, .i32⟩ : BufTy).Contents (Elt Ideal))

/-- The reference's stages read at an index are the specification's quantities, one after the other. -/
theorem v10_sim (r c : Fin 4096) :
    ReadP.val_main_v10 (F := Ideal) x0 (ix2 r c) = Cert.Spec.sim (Eof x0) r c := by
  have el : ∀ k : Fin 256, ReadP.lidx_main_v8 (ix2 r c) k = ix2 r k := fun k =>
    funext fun a => Fin.ext (by match a with | ⟨0, _⟩ => rfl | ⟨1, _⟩ => rfl)
  have er : ∀ k : Fin 256, ReadP.idx_main_v7 (ReadP.ridx_main_v8 (ix2 r c) k) = ix2 c k := fun k =>
    funext fun a => Fin.ext (by match a with | ⟨0, _⟩ => rfl | ⟨1, _⟩ => rfl)
  rw [ReadP.val_main_v10_apply, ReadP.val_main_v8_apply, ReadP.val_main_v9_apply, ReadP.val_main_cst_0_apply]
  simp only [ReadP.val_main_v7_apply, el, er]
  rw [Ideal.hostDivf_def, Ideal.ofBits_def, ofBits_temp, Ideal.div_coe (by norm_num)]
  unfold Cert.Spec.sim Cert.Spec.kappa Eof
  rw [show (1 / (9395241 / 134217728) : ℝ) = 134217728 / 9395241 by norm_num]

theorem uitofp_cmpi_eq (a b : BitVec 32) :
    FloatOps.uitofp (F := Ideal) .f32 (IntOp.cmpi .eq a b) = if a = b then (1 : EReal) else 0 := by
  show (((BitVec.ofBool (a == b)).toNat : ℝ) : EReal) = _
  by_cases h : a = b <;> simp [h]

theorem v16_eye (r c : Fin 4096) : ReadP.val_main_v16 (F := Ideal) (ix2 r c) = Cert.Spec.eye r c := by
  rw [ReadP.val_main_v16_apply, ReadP.val_main_v15_apply, ReadP.val_main_v14_apply, ReadP.val_main_v11_apply,
    ReadP.val_main_v12_apply, ReadP.val_main_v13_apply, ReadP.val_main_c_apply, uitofp_cmpi_eq]
  unfold Cert.Spec.eye IntOp.addi
  rw [BitVec.add_zero]
  exact if_congr (Cert.Spec.ofNat_eq_iff r c) rfl rfl

theorem v22_leq (r c : Fin 4096) : ReadP.val_main_v22 (F := Ideal) x1 (ix2 r c) = Cert.Spec.leq (labOf x1) r c := by
  have ec : ReadP.idx_main_v17 (ReadP.idx_main_v19 (ix2 r c)) = ix1 c :=
    funext fun a => Fin.ext (by match a with | ⟨0, _⟩ => rfl)
  have er : ReadP.idx_main_v18 (ReadP.idx_main_v20 (ix2 r c)) = ix1 r :=
    funext fun a => Fin.ext (by match a with | ⟨0, _⟩ => rfl)
  rw [ReadP.val_main_v22_apply, ReadP.val_main_v21_apply, ReadP.val_main_v19_apply, ReadP.val_main_v20_apply,
    ReadP.val_main_v17_apply, ReadP.val_main_v18_apply, ec, er, uitofp_cmpi_eq]
  unfold Cert.Spec.leq labOf
  exact if_congr eq_comm rfl rfl

theorem v23_mask (r c : Fin 4096) : ReadP.val_main_v23 (F := Ideal) x1 (ix2 r c) = Cert.Spec.mask (labOf x1) r c := by
  rw [ReadP.val_main_v23_apply, v22_leq, v16_eye, Ideal.subf_def]
  rfl

theorem lift_row (h : S4096x4096.Reduces [1] S4096) (r : Fin 4096) (k : Fin (S4096x4096.size 1)) :
    h.lift (ix1 r) k = ix2 r (⟨k.val, k.isLt⟩ : Fin 4096) := by
  funext c; apply Fin.ext
  fin_cases c <;> rfl

theorem v24_rowMax (r : Fin 4096) : ReadP.val_main_v24 (F := Ideal) x0 (ix1 r) = Cert.Spec.rowMax (Eof x0) r := by
  have h : S4096x4096.Reduces [1] S4096 := by decide
  have hf : (ReadP.val_main_v10 (F := Ideal) x0 ∘ h.lift (ix1 r)) = fun k : Fin 4096 => Cert.Spec.sim (Eof x0) r k :=
    funext fun k => by rw [Function.comp_apply, lift_row, v10_sim]; rfl
  unfold ReadP.val_main_v24
  rw [Host.reduce_eq_fold_single FloatOps.maximumf _ _ Gen.reducesTo_S4096x4096_S4096_d1 h Gen.h_S_, ReadP.val_main_cst_1_apply,
    Ideal.ofBits_def, Cert.Spec.ofBits_neg_inf]
  unfold Cert.Spec.rowMax
  exact congrArg (fun f => Finset.fold max ⊥ f (Finset.univ : Finset (Fin 4096))) hf

theorem v27_shift (r c : Fin 4096) :
    ReadP.val_main_v27 (F := Ideal) x0 (ix2 r c) = Cert.Spec.sim (Eof x0) r c - Cert.Spec.rowMax (Eof x0) r := by
  have e : ReadP.idx_main_v25 (ReadP.idx_main_v26 (ix2 r c)) = ix1 r :=
    funext fun a => Fin.ext (by match a with | ⟨0, _⟩ => rfl)
  rw [ReadP.val_main_v27_apply, ReadP.val_main_v26_apply, ReadP.val_main_v25_apply, e, v24_rowMax, v10_sim, Ideal.subf_def]

theorem v32_rowS (r : Fin 4096) : ReadP.val_main_v32 (F := Ideal) x0 (ix1 r) = Cert.Spec.rowS (Eof x0) r := by
  have e : ∀ k : Fin 4096, ReadP.idx_main_v32 (ix1 r) k = ix2 r k := fun k =>
    funext fun a => Fin.ext (by match a with | ⟨0, _⟩ => rfl | ⟨1, _⟩ => rfl)
  rw [ReadP.val_main_v32_apply, ReadP.val_main_cst_3_apply, Ideal.ofBits_def, Ideal.ofBits_zero_f32, zero_add]
  unfold Cert.Spec.rowS
  refine Finset.sum_congr rfl fun k _ => ?_
  rw [e, ReadP.val_main_v31_apply, ReadP.val_main_v28_apply, ReadP.val_main_v30_apply, ReadP.val_main_v29_apply,
    ReadP.val_main_cst_2_apply, v27_shift, v16_eye, Ideal.mulf_def, Ideal.subf_def, Ideal.hostUnary_exp_def,
    Ideal.ofBits_def, Cert.Spec.ofBits_one]

theorem v38_logprob (r c : Fin 4096) :
    ReadP.val_main_v38 (F := Ideal) x0 (ix2 r c)
      = (Cert.Spec.sim (Eof x0) r c - Cert.Spec.rowMax (Eof x0) r) - Ideal.log (Cert.Spec.rowS (Eof x0) r + Cert.Spec.eps) := by
  have e : ReadP.idx_main_v33 (ReadP.idx_main_v37 (ix2 r c)) = ix1 r :=
    funext fun a => Fin.ext (by match a with | ⟨0, _⟩ => rfl)
  rw [ReadP.val_main_v38_apply, ReadP.val_main_v37_apply, ReadP.val_main_v36_apply, ReadP.val_main_v35_apply,
    ReadP.val_main_v33_apply, e, v32_rowS, ReadP.val_main_v34_apply, ReadP.val_main_cst_4_apply, v27_shift,
    Ideal.subf_def, Ideal.hostUnary_log_def, Ideal.addf_def, Ideal.ofBits_def]
  rfl

theorem v39_rowN (r : Fin 4096) : ReadP.val_main_v39 (F := Ideal) x1 (ix1 r) = Cert.Spec.rowN (labOf x1) r := by
  have e : ∀ k : Fin 4096, ReadP.idx_main_v39 (ix1 r) k = ix2 r k := fun k =>
    funext fun a => Fin.ext (by match a with | ⟨0, _⟩ => rfl | ⟨1, _⟩ => rfl)
  rw [ReadP.val_main_v39_apply, ReadP.val_main_cst_5_apply, Ideal.ofBits_def, Ideal.ofBits_zero_f32, zero_add]
  unfold Cert.Spec.rowN
  refine Finset.sum_congr rfl fun k _ => ?_
  rw [e, v23_mask]

theorem v41_rowQ (r : Fin 4096) :
    ReadP.val_main_v41 (F := Ideal) x0 x1 (ix1 r) = Cert.Spec.rowQ (Eof x0) (labOf x1) r := by
  have e : ∀ k : Fin 4096, ReadP.idx_main_v41 (ix1 r) k = ix2 r k := fun k =>
    funext fun a => Fin.ext (by match a with | ⟨0, _⟩ => rfl | ⟨1, _⟩ => rfl)
  rw [ReadP.val_main_v41_apply, ReadP.val_main_cst_6_apply, Ideal.ofBits_def, Ideal.ofBits_zero_f32, zero_add]
  unfold Cert.Spec.rowQ
  refine Finset.sum_congr rfl fun k _ => ?_
  rw [e, ReadP.val_main_v40_apply, v23_mask, v38_logprob, Ideal.mulf_def]

theorem uitofp_ogt_zero (n : EReal) :
    FloatOps.uitofp (F := Ideal) .f32 (Ideal.cmp .ogt n 0) = if 0 < n then (1 : EReal) else 0 := by
  show (((BitVec.ofBool (decide (0 < n))).toNat : ℝ) : EReal) = _
  by_cases h : 0 < n <;> simp [h]

theorem v47_bit (r : Fin 4096) :
    ReadP.val_main_v47 (F := Ideal) x1 (ix1 r) = Ideal.cmp .ogt (Cert.Spec.rowN (labOf x1) r) 0 := by
  rw [ReadP.val_main_v47_apply, v39_rowN, ReadP.val_main_v46_apply, ReadP.val_main_cst_8_apply, Ideal.cmpf_def,
    Ideal.ofBits_def, Ideal.ofBits_zero_f32]

theorem v48_rowValid (r : Fin 4096) : ReadP.val_main_v48 (F := Ideal) x1 (ix1 r) = Cert.Spec.rowValid (labOf x1) r := by
  rw [ReadP.val_main_v48_apply, v47_bit, uitofp_ogt_zero]
  rfl

theorem v51_rowLoss (r : Fin 4096) :
    ReadP.val_main_v51 (F := Ideal) x0 x1 (ix1 r) = Cert.Spec.rowLoss (Eof x0) (labOf x1) r := by
  rw [ReadP.val_main_v51_apply, v47_bit, Cert.Spec.select_ogt_zero, ReadP.val_main_v45_apply, ReadP.val_main_v44_apply,
    v41_rowQ, ReadP.val_main_v43_apply, v39_rowN, ReadP.val_main_v42_apply, ReadP.val_main_cst_7_apply,
    ReadP.val_main_call1_v1_apply, ReadP.val_main_call1_v0_apply, ReadP.val_main_cst_11_apply,
    Ideal.hostNegf_def, Ideal.negf_def, Ideal.hostDivf_def, Ideal.addf_def, Ideal.ofBits_def, Ideal.ofBits_def,
    Ideal.ofBits_zero_f32]
  rfl

theorem sum_rows (f : S4096.Idx → EReal) : ∑ j : S4096.Idx, f j = ∑ r : Fin 4096, f (ix1 r) :=
  (Equiv.sum_comp (idxEquiv1 (n := 4096)).symm f).symm

end Stages

/-- So the reference's result is the specification's loss. -/
theorem ref_is_spec (x0 : (⟨S2x2048x256, .f32⟩ : BufTy).Contents (Elt Ideal)) (x1 : (⟨S2x2048, .i32⟩ : BufTy).Contents (Elt Ideal)) :
    Cert.ReferenceIdeal.ReadP.val_main_v54 (F := Ideal) x0 x1 = fun _ => Cert.Spec.loss (Eof x0) (labOf x1) := by
  funext i
  rw [ReadP.val_main_v54_apply, ReadP.val_main_v53_apply, ReadP.val_main_v52_apply, ReadP.val_main_v50_apply,
    ReadP.val_main_v49_apply, ReadP.val_main_cst_9_apply, ReadP.val_main_cst_10_apply, ReadP.val_main_cst_12_apply,
    ReadP.val_main_cst_13_apply, sum_rows, sum_rows]
  simp only [v51_rowLoss, v48_rowValid, Ideal.mulf_def, Ideal.hostDivf_def, Ideal.maximumf_def, Ideal.ofBits_def,
    Ideal.ofBits_zero_f32, Cert.Spec.ofBits_one, zero_add]
  rfl

end Cert.RefSpec

end
-- ==== Proof.lean ====
/-
  A supervised contrastive loss. Both programs normalise the 4096 embedding rows and take, per row, the log-softmax of
  its similarities to the other rows, averaged over the rows with the same label. The reference forms each row whole;
  the kernel walks it in eight tiles of 512 columns with a running maximum m and a sum rescaled by exp (m − m'),
  which is the row's sum because exp (x − m) · exp (m − m') = exp (x − m') over the reals (the inputs are finite).
-/
import proofs.«144165_j35948876268190_1_alg».proof.Defs
import proofs.«144165_j35948876268190_1_alg».proof.Proof.Gen.Kernel
import proofs.«144165_j35948876268190_1_alg».proof.Proof.Gen.KernelIdeal
import proofs.«144165_j35948876268190_1_alg».proof.Proof.Gen.ReferenceIdeal
import proofs.«144165_j35948876268190_1_alg».proof.Proof.Gen.Pre_finite_inputs
import proofs.«144165_j35948876268190_1_alg».proof.Proof.KbLaunch
import proofs.«144165_j35948876268190_1_alg».proof.Proof.KbData
import proofs.«144165_j35948876268190_1_alg».proof.Proof.KAssemble
import proofs.«144165_j35948876268190_1_alg».proof.Proof.RefIsSpec
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel := fun m ρ _ =>
  (θ_run Cert.Kernel.defs _ _).mono (fun _ h c => (h c).2)
    (Cert.Kernel.Hand.run_of m ρ (Cert.Kernel.Hand.dats m) (Cert.Kernel.Hand.A_eq m) (fun _ => rfl) (fun _ => rfl) (fun _ => rfl)
      (fun _ => rfl) (fun _ _ => rfl) (fun _ _ => rfl) (Cert.Kernel.Hand.body_obligation m) (Cert.Kernel.Hand.hin m) (Cert.Kernel.Hand.hout m))

theorem frame_ki : Cert.frame_KernelIdeal := fun m ρ _ => Cert.KernelIdeal.Val.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The kernel's multiplier is named the exact reciprocal of the reference's divisor. -/
theorem preserves : Cert.preserves_Kernel_KernelIdeal :=
  IdealRules.named_const.statement Cert.KernelIdeal.κ "inv_temp" .f32 0x41649249#32 ((134217728 / 9395241 : ℝ) : EReal) rfl

/-- Both idealized programs end at the specification's loss of the normalised embeddings and the labels. -/
theorem algebraic : Cert.algebraic_KernelIdeal_ReferenceIdeal := by
  intro m ρ m' ρ' hpre hagree
  refine ⟨fun c => (fun _ => Cert.Spec.loss (Cert.RefSpec.Eof (m ((c.tc : Thread Cert.KernelIdeal.nD Cert.KernelIdeal.τ).loc Cert.KernelIdeal.main_arg0)))
      (Cert.RefSpec.labOf (m ((c.tc : Thread Cert.KernelIdeal.nD Cert.KernelIdeal.τ).loc Cert.KernelIdeal.main_arg1)))),
    Cert.KernelIdeal.Val.run m ρ hpre, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v54_eq, Cert.RefSpec.ref_is_spec, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
